-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x2752 : Shape := ⟨2, ![4096, 2752]⟩
abbrev S32x2752 : Shape := ⟨2, ![32, 2752]⟩
abbrev S32x22016 : Shape := ⟨2, ![32, 22016]⟩
abbrev S11008x512 : Shape := ⟨2, ![11008, 512]⟩
abbrev S86x512 : Shape := ⟨2, ![86, 512]⟩
abbrev S86x4096 : Shape := ⟨2, ![86, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32x22016 : S_.BroadcastsInDim S32x22016 (![] : Fin 0 → Fin S32x22016.rank)
  reducesTo_S32x22016_S_d0_1 : S32x22016.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn {F : FTy → Type} [FloatOps F] (main_arg0 : FVec F S2x2048x4096 .f32) (main_arg1 : IVec S4096x2752 32) (main_arg2 : IVec S32x2752 32) (main_arg3 : FVec F S32x22016 .f32) (main_arg4 : IVec S11008x512 32) (main_arg5 : IVec S86x512 32) (main_arg6 : FVec F S86x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32x22016 .f32 := Host.absf main_arg3
  let main_cst_0 : FVec F S_ .f32 := constant S_ .f32 0x7F800000#32
  let main_v5 : FVec F S32x22016 .f32 := broadcastInDim S32x22016 ![] bcast_S_S32x22016 main_cst_0
  let main_v6 : IVec S32x22016 1 := cmpf .olt main_v4 main_v5
  let main_c_1 : IVec S_ 1 := constantI S_ 1 1#1
  let main_v7 : IVec S_ 1 := (fun x v => Host.reduce IntOp.andi x v reducesTo_S32x22016_S_d0_1 h_S_) main_v6 main_c_1
  let main_v8 : IVec S_ 1 := andi main_v3 main_v7
  let main_v9 : FVec F S86x4096 .f32 := Host.absf main_arg6
  let main_cst_2 : FVec F S_ .f32 := constant S_ .f32 0x7F800000#32
  let main_v10 : FVec F S86x4096 .f32 := broadcastInDim S86x4096 ![] bcast_S_S86x4096 main_cst_2
  let main_v11 : IVec S86x4096 1 := cmpf .olt main_v9 main_v10
  let main_c_3 : IVec S_ 1 := constantI S_ 1 1#1
  let main_v12 : IVec S_ 1 := (fun x v => Host.reduce IntOp.andi x v reducesTo_S86x4096_S_d0_1 h_S_) main_v11 main_c_3
  let main_v13 : IVec S_ 1 := andi main_v8 main_v12
  main_v13
-- ==== Kernel.lean ====
abbrev S2x2048x4096 : Shape := ⟨3, ![2, 2048, 4096]⟩
abbrev S4096x2752 : Shape := ⟨2, ![4096, 2752]⟩
abbrev S32x2752 : Shape := ⟨2, ![32, 2752]⟩
abbrev S32x22016 : Shape := ⟨2, ![32, 22016]⟩
abbrev S11008x512 : Shape := ⟨2, ![11008, 512]⟩
abbrev S86x512 : Shape := ⟨2, ![86, 512]⟩
abbrev S86x4096 : Shape := ⟨2, ![86, 4096]⟩
abbrev S4096x4096 : Shape := ⟨2, ![4096, 4096]⟩
abbrev S4096x1376 : Shape := ⟨2, ![4096, 1376]⟩
abbrev S_ : Shape := ⟨0, ![]⟩
abbrev S4096x1408 : Shape := ⟨2, ![4096, 1408]⟩
abbrev S32x1376 : Shape := ⟨2, ![32, 1376]⟩
abbrev S32x1408 : Shape := ⟨2, ![32, 1408]⟩
abbrev S32x11008 : Shape := ⟨2, ![32, 11008]⟩
abbrev S32x11264 : Shape := ⟨2, ![32, 11264]⟩
abbrev S8 : Shape := ⟨1, ![8]⟩
abbrev S4096x1408x1 : Shape := ⟨3, ![4096, 1408, 1]⟩
abbrev S1x1x8 : Shape := ⟨3, ![1, 1, 8]⟩
abbrev S4096x1408x8 : Shape := ⟨3, ![4096, 1408, 8]⟩
abbrev S4096x11264 : Shape := ⟨2, ![4096, 11264]⟩
abbrev S32x1408x1 : Shape := ⟨3, ![32, 1408, 1]⟩
abbrev S32x1408x8 : Shape := ⟨3, ![32, 1408, 8]⟩
abbrev S32x128x11264 : Shape := ⟨3, ![32, 128, 11264]⟩
abbrev S11264x512 : Shape := ⟨2, ![11264, 512]⟩
abbrev S88x512 : Shape := ⟨2, ![88, 512]⟩
abbrev S88x4096 : Shape := ⟨2, ![88, 4096]⟩
abbrev S11264x512x1 : Shape := ⟨3, ![11264, 512, 1]⟩
abbrev S11264x512x8 : Shape := ⟨3, ![11264, 512, 8]⟩
abbrev S11264x4096 : Shape := ⟨2, ![11264, 4096]⟩
abbrev S88x512x1 : Shape := ⟨3, ![88, 512, 1]⟩
abbrev S88x512x8 : Shape := ⟨3, ![88, 512, 8]⟩
abbrev S88x128x4096 : Shape := ⟨3, ![88, 128, 4096]⟩
abbrev S1024x1024 : Shape := ⟨2, ![1024, 1024]⟩

abbrev nBuf : Space → Nat
  | .hbm => 138
  | .vmem => 17
  | .smem => 0
  | _ => 0

abbrev hbmTy0_0 (i : Nat) : BufTy := match i % 128 with
  | 0 => ⟨S2x2048x4096, .f32⟩
  | 1 => ⟨S4096x2752, .i32⟩
  | 2 => ⟨S32x2752, .i32⟩
  | 3 => ⟨S32x22016, .f32⟩
  | 4 => ⟨S11008x512, .i32⟩
  | 5 => ⟨S86x512, .i32⟩
  | 6 => ⟨S86x4096, .f32⟩
  | 7 => ⟨S4096x4096, .f32⟩
  | 8 => ⟨S4096x1376, .i32⟩
  | 9 => ⟨S_, .i32⟩
  | 10 => ⟨S_, .i32⟩
  | 11 => ⟨S4096x1408, .i32⟩
  | 12 => ⟨S4096x1376, .i32⟩
  | 13 => ⟨S_, .i32⟩
  | 14 => ⟨S_, .i32⟩
  | 15 => ⟨S4096x1408, .i32⟩
  | 16 => ⟨S32x1376, .i32⟩
  | 17 => ⟨S_, .i32⟩
  | 18 => ⟨S_, .i32⟩
  | 19 => ⟨S32x1408, .i32⟩
  | 20 => ⟨S32x1376, .i32⟩
  | 21 => ⟨S_, .i32⟩
  | 22 => ⟨S_, .i32⟩
  | 23 => ⟨S32x1408, .i32⟩
  | 24 => ⟨S32x11008, .f32⟩
  | 25 => ⟨S_, .i32⟩
  | 26 => ⟨S_, .f32⟩
  | 27 => ⟨S32x11264, .f32⟩
  | 28 => ⟨S32x11008, .f32⟩
  | 29 => ⟨S_, .i32⟩
  | 30 => ⟨S_, .f32⟩
  | 31 => ⟨S32x11264, .f32⟩
  | 32 => ⟨S8, .i32⟩
  | 33 => ⟨S_, .i32⟩
  | 34 => ⟨S8, .i32⟩
  | 35 => ⟨S8, .i32⟩
  | 36 => ⟨S4096x1408x1, .i32⟩
  | 37 => ⟨S1x1x8, .i32⟩
  | 38 => ⟨S4096x1408x8, .i32⟩
  | 39 => ⟨S4096x1408x8, .i32⟩
  | 40 => ⟨S4096x1408x8, .i32⟩
  | 41 => ⟨S_, .i32⟩
  | 42 => ⟨S4096x1408x8, .i32⟩
  | 43 => ⟨S4096x1408x8, .i32⟩
  | 44 => ⟨S4096x11264, .i32⟩
  | 45 => ⟨S4096x11264, .f32⟩
  | 46 => ⟨S32x1408x1, .i32⟩
  | 47 => ⟨S1x1x8, .i32⟩
  | 48 => ⟨S32x1408x8, .i32⟩
  | 49 => ⟨S32x1408x8, .i32⟩
  | 50 => ⟨S32x1408x8, .i32⟩
  | 51 => ⟨S_, .i32⟩
  | 52 => ⟨S32x1408x8, .i32⟩
  | 53 => ⟨S32x1408x8, .i32⟩
  | 54 => ⟨S32x11264, .i32⟩
  | 55 => ⟨S32x11264, .f32⟩
  | 56 => ⟨S32x128x11264, .f32⟩
  | 57 => ⟨S4096x11264, .f32⟩
  | 58 => ⟨S32x128x11264, .f32⟩
  | 59 => ⟨S4096x11264, .f32⟩
  | 60 => ⟨S4096x11264, .f32⟩
  | 61 => ⟨S4096x11264, .f32⟩
  | 62 => ⟨S4096x11264, .bf16⟩
  | 63 => ⟨S8, .i32⟩
  | 64 => ⟨S_, .i32⟩
  | 65 => ⟨S8, .i32⟩
  | 66 => ⟨S8, .i32⟩
  | 67 => ⟨S4096x1408x1, .i32⟩
  | 68 => ⟨S1x1x8, .i32⟩
  | 69 => ⟨S4096x1408x8, .i32⟩
  | 70 => ⟨S4096x1408x8, .i32⟩
  | 71 => ⟨S4096x1408x8, .i32⟩
  | 72 => ⟨S_, .i32⟩
  | 73 => ⟨S4096x1408x8, .i32⟩
  | 74 => ⟨S4096x1408x8, .i32⟩
  | 75 => ⟨S4096x11264, .i32⟩
  | 76 => ⟨S4096x11264, .f32⟩
  | 77 => ⟨S32x1408x1, .i32⟩
  | 78 => ⟨S1x1x8, .i32⟩
  | 79 => ⟨S32x1408x8, .i32⟩
  | 80 => ⟨S32x1408x8, .i32⟩
  | 81 => ⟨S32x1408x8, .i32⟩
  | 82 => ⟨S_, .i32⟩
  | 83 => ⟨S32x1408x8, .i32⟩
  | 84 => ⟨S32x1408x8, .i32⟩
  | 85 => ⟨S32x11264, .i32⟩
  | 86 => ⟨S32x11264, .f32⟩
  | 87 => ⟨S32x128x11264, .f32⟩
  | 88 => ⟨S4096x11264, .f32⟩
  | 89 => ⟨S32x128x11264, .f32⟩
  | 90 => ⟨S4096x11264, .f32⟩
  | 91 => ⟨S4096x11264, .f32⟩
  | 92 => ⟨S4096x11264, .f32⟩
  | 93 => ⟨S4096x11264, .bf16⟩
  | 94 => ⟨S_, .i32⟩
  | 95 => ⟨S_, .i32⟩
  | 96 => ⟨S11264x512, .i32⟩
  | 97 => ⟨S_, .i32⟩
  | 98 => ⟨S_, .i32⟩
  | 99 => ⟨S88x512, .i32⟩
  | 100 => ⟨S_, .i32⟩
  | 101 => ⟨S_, .f32⟩
  | 102 => ⟨S88x4096, .f32⟩
  | 103 => ⟨S8, .i32⟩
  | 104 => ⟨S_, .i32⟩
  | 105 => ⟨S8, .i32⟩
  | 106 => ⟨S8, .i32⟩
  | 107 => ⟨S11264x512x1, .i32⟩
  | 108 => ⟨S1x1x8, .i32⟩
  | 109 => ⟨S11264x512x8, .i32⟩
  | 110 => ⟨S11264x512x8, .i32⟩
  | 111 => ⟨S11264x512x8, .i32⟩
  | 112 => ⟨S_, .i32⟩
  | 113 => ⟨S11264x512x8, .i32⟩
  | 114 => ⟨S11264x512x8, .i32⟩
  | 115 => ⟨S11264x4096, .i32⟩
  | 116 => ⟨S11264x4096, .f32⟩
  | 117 => ⟨S88x512x1, .i32⟩
  | 118 => ⟨S1x1x8, .i32⟩
  | 119 => ⟨S88x512x8, .i32⟩
  | 120 => ⟨S88x512x8, .i32⟩
  | 121 => ⟨S88x512x8, .i32⟩
  | 122 => ⟨S_, .i32⟩
  | 123 => ⟨S88x512x8, .i32⟩
  | 124 => ⟨S88x512x8, .i32⟩
  | 125 => ⟨S88x4096, .i32⟩
  | 126 => ⟨S88x4096, .f32⟩
  | 127 => ⟨S88x128x4096, .f32⟩
  | _ => ⟨S2x2048x4096, .f32⟩

abbrev hbmTy0_1 (i : Nat) : BufTy := match i % 128 with
  | 0 => ⟨S11264x4096, .f32⟩
  | 1 => ⟨S88x128x4096, .f32⟩
  | 2 => ⟨S11264x4096, .f32⟩
  | 3 => ⟨S11264x4096, .f32⟩
  | 4 => ⟨S11264x4096, .f32⟩
  | 5 => ⟨S11264x4096, .bf16⟩
  | 6 => ⟨S4096x4096, .bf16⟩
  | 7 => ⟨S4096x11264, .bf16⟩
  | 8 => ⟨S4096x4096, .f32⟩
  | 9 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call3_v0 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call4_v0 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_call5_v0 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_call6_v0 : Ref sig .tc := ⟨.hbm, 95, rfl⟩
abbrev main_v69 : Ref sig .tc := ⟨.hbm, 96, rfl⟩
abbrev main_c_12 : Ref sig .tc := ⟨.hbm, 97, rfl⟩
abbrev main_call7_v0 : Ref sig .tc := ⟨.hbm, 98, rfl⟩
abbrev main_v70 : Ref sig .tc := ⟨.hbm, 99, rfl⟩
abbrev main_c_13 : Ref sig .tc := ⟨.hbm, 100, rfl⟩
abbrev main_call8_v0 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 11], ![false, false, false]⟩

def k1_cond2 (i : grid1.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x4096_S4096x4096 : S2x2048x4096.ShapeCasts S4096x4096
  slices_S4096x2752_S4096x1376_0_0 : S4096x2752.Slices ![0, 0] S4096x1376
  pads_S4096x1376_S4096x1408_000_0320 : S4096x1376.Pads (![0, 0] : Fin 2 → Nat) ![0, 32] ![0, 0] S4096x1408
  h_S_ : 0 < S_.numel
  slices_S4096x2752_S4096x1376_0_1376 : S4096x2752.Slices ![0, 1376] S4096x1376
  slices_S32x2752_S32x1376_0_0 : S32x2752.Slices ![0, 0] S32x1376
  pads_S32x1376_S32x1408_000_0320 : S32x1376.Pads (![0, 0] : Fin 2 → Nat) ![0, 32] ![0, 0] S32x1408
  slices_S32x2752_S32x1376_0_1376 : S32x2752.Slices ![0, 1376] S32x1376
  slices_S32x22016_S32x11008_0_0 : S32x22016.Slices ![0, 0] S32x11008
  pads_S32x11008_S32x11264_000_02560 : S32x11008.Pads (![0, 0] : Fin 2 → Nat) ![0, 256] ![0, 0] S32x11264
  slices_S32x22016_S32x11008_0_11008 : S32x22016.Slices ![0, 11008] S32x11008
  bcast_S_S8 : S_.BroadcastsInDim S8 (![] : Fin 0 → Fin S8.rank)
  bcast_S4096x1408_S4096x1408x1_0_1 : S4096x1408.BroadcastsInDim S4096x1408x1 (![0, 1] : Fin 2 → Fin S4096x1408x1.rank)
  bcast_S8_S1x1x8_2 : S8.BroadcastsInDim S1x1x8 (![2] : Fin 1 → Fin S1x1x8.rank)
  bcast_S4096x1408x1_S4096x1408x8_0_1_2 : S4096x1408x1.BroadcastsInDim S4096x1408x8 (![0, 1, 2] : Fin 3 → Fin S4096x1408x8.rank)
  bcast_S1x1x8_S4096x1408x8_0_1_2 : S1x1x8.BroadcastsInDim S4096x1408x8 (![0, 1, 2] : Fin 3 → Fin S4096x1408x8.rank)
  bcast_S_S4096x1408x8 : S_.BroadcastsInDim S4096x1408x8 (![] : Fin 0 → Fin S4096x1408x8.rank)
  shapeCasts_S4096x1408x8_S4096x11264 : S4096x1408x8.ShapeCasts S4096x11264
  bcast_S32x1408_S32x1408x1_0_1 : S32x1408.BroadcastsInDim S32x1408x1 (![0, 1] : Fin 2 → Fin S32x1408x1.rank)
  bcast_S32x1408x1_S32x1408x8_0_1_2 : S32x1408x1.BroadcastsInDim S32x1408x8 (![0, 1, 2] : Fin 3 → Fin S32x1408x8.rank)
  bcast_S1x1x8_S32x1408x8_0_1_2 : S1x1x8.BroadcastsInDim S32x1408x8 (![0, 1, 2] : Fin 3 → Fin S32x1408x8.rank)
  bcast_S_S32x1408x8 : S_.BroadcastsInDim S32x1408x8 (![] : Fin 0 → Fin S32x1408x8.rank)
  shapeCasts_S32x1408x8_S32x11264 : S32x1408x8.ShapeCasts S32x11264
  bcast_S32x11264_S32x128x11264_0_2 : S32x11264.BroadcastsInDim S32x128x11264 (![0, 2] : Fin 2 → Fin S32x128x11264.rank)
  shapeCasts_S32x128x11264_S4096x11264 : S32x128x11264.ShapeCasts S4096x11264
  bitsLt_bf16_f32 : FTy.bits .bf16 < FTy.bits .f32
  pads_S11008x512_S11264x512_02560_000 : S11008x512.Pads (![0, 0] : Fin 2 → Nat) ![256, 0] ![0, 0] S11264x512
  pads_S86x512_S88x512_020_000 : S86x512.Pads (![0, 0] : Fin 2 → Nat) ![2, 0] ![0, 0] S88x512
  pads_S86x4096_S88x4096_020_000 : S86x4096.Pads (![0, 0] : Fin 2 → Nat) ![2, 0] ![0, 0] S88x4096
  bcast_S11264x512_S11264x512x1_0_1 : S11264x512.BroadcastsInDim S11264x512x1 (![0, 1] : Fin 2 → Fin S11264x512x1.rank)
  bcast_S11264x512x1_S11264x512x8_0_1_2 : S11264x512x1.BroadcastsInDim S11264x512x8 (![0, 1, 2] : Fin 3 → Fin S11264x512x8.rank)
  bcast_S1x1x8_S11264x512x8_0_1_2 : S1x1x8.BroadcastsInDim S11264x512x8 (![0, 1, 2] : Fin 3 → Fin S11264x512x8.rank)
  bcast_S_S11264x512x8 : S_.BroadcastsInDim S11264x512x8 (![] : Fin 0 → Fin S11264x512x8.rank)
  shapeCasts_S11264x512x8_S11264x4096 : S11264x512x8.ShapeCasts S11264x4096
  bcast_S88x512_S88x512x1_0_1 : S88x512.BroadcastsInDim S88x512x1 (![0, 1] : Fin 2 → Fin S88x512x1.rank)
  bcast_S88x512x1_S88x512x8_0_1_2 : S88x512x1.BroadcastsInDim S88x512x8 (![0, 1, 2] : Fin 3 → Fin S88x512x8.rank)
  bcast_S1x1x8_S88x512x8_0_1_2 : S1x1x8.BroadcastsInDim S88x512x8 (![0, 1, 2] : Fin 3 → Fin S88x512x8.rank)
  bcast_S_S88x512x8 : S_.BroadcastsInDim S88x512x8 (![] : Fin 0 → Fin S88x512x8.rank)
  shapeCasts_S88x512x8_S88x4096 : S88x512x8.ShapeCasts S88x4096
  bcast_S88x4096_S88x128x4096_0_2 : S88x4096.BroadcastsInDim S88x128x4096 (![0, 2] : Fin 2 → Fin S88x128x4096.rank)
  shapeCasts_S88x128x4096_S11264x4096 : S88x128x4096.ShapeCasts S11264x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x4096_S2x2048x4096 : S4096x4096.ShapeCasts S2x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x11264.size a
  hwx0_1 : ∀ i : grid0.Coords, EltTy.bits .bf16 = 32 ∨ (Rect.block (s := S4096x11264) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x11264.size a
  hwx0_2 : ∀ i : grid0.Coords, EltTy.bits .bf16 = 32 ∨ (Rect.block (s := S4096x11264) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x11264.size a
  hwx0_3 : ∀ i : grid0.Coords, EltTy.bits .bf16 = 32 ∨ (Rect.block (s := S4096x11264) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x11264.size a
  hwx1_0 : ∀ i : grid1.Coords, EltTy.bits .bf16 = 32 ∨ (Rect.block (s := S4096x11264) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v100) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v101) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v101) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v102) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x2752 : Shape := ⟨2, ![4096, 2752]⟩
abbrev S32x2752 : Shape := ⟨2, ![32, 2752]⟩
abbrev S32x22016 : Shape := ⟨2, ![32, 22016]⟩
abbrev S11008x512 : Shape := ⟨2, ![11008, 512]⟩
abbrev S86x512 : Shape := ⟨2, ![86, 512]⟩
abbrev S86x4096 : Shape := ⟨2, ![86, 4096]⟩
abbrev S8 : Shape := ⟨1, ![8]⟩
abbrev S_ : Shape := ⟨0, ![]⟩
abbrev S4096x2752x1 : Shape := ⟨3, ![4096, 2752, 1]⟩
abbrev S1x1x8 : Shape := ⟨3, ![1, 1, 8]⟩
abbrev S4096x2752x8 : Shape := ⟨3, ![4096, 2752, 8]⟩
abbrev S4096x22016 : Shape := ⟨2, ![4096, 22016]⟩
abbrev S32x2752x1 : Shape := ⟨3, ![32, 2752, 1]⟩
abbrev S32x2752x8 : Shape := ⟨3, ![32, 2752, 8]⟩
abbrev S32x128x22016 : Shape := ⟨3, ![32, 128, 22016]⟩
abbrev S2x2048x22016 : Shape := ⟨3, ![2, 2048, 22016]⟩
abbrev S2x2048x11008 : Shape := ⟨3, ![2, 2048, 11008]⟩
abbrev S11008x512x1 : Shape := ⟨3, ![11008, 512, 1]⟩
abbrev S11008x512x8 : Shape := ⟨3, ![11008, 512, 8]⟩
abbrev S11008x4096 : Shape := ⟨2, ![11008, 4096]⟩
abbrev S86x512x1 : Shape := ⟨3, ![86, 512, 1]⟩
abbrev S86x512x8 : Shape := ⟨3, ![86, 512, 8]⟩
abbrev S86x128x4096 : Shape := ⟨3, ![86, 128, 4096]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x2752, .i32⟩
  | .hbm, ⟨2, _⟩ => ⟨S32x2752, .i32⟩
  | .hbm, ⟨3, _⟩ => ⟨S32x22016, .f32⟩
  | .hbm, ⟨4, _⟩ => ⟨S11008x512, .i32⟩
  | .hbm, ⟨5, _⟩ => ⟨S86x512, .i32⟩
  | .hbm, ⟨6, _⟩ => ⟨S86x4096, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S4096x2752x1, .i32⟩
  | .hbm, ⟨12, _⟩ => ⟨S1x1x8, .i32⟩
  | .hbm, ⟨13, _⟩ => ⟨S4096x2752x8, .i32⟩
  | .hbm, ⟨14, _⟩ => ⟨S4096x2752x8, .i32⟩
  | .hbm, ⟨15, _⟩ => ⟨S4096x2752x8, .i32⟩
  | .hbm, ⟨16, _⟩ => ⟨S_, .i32⟩
  | .hbm, ⟨17, _⟩ => ⟨S4096x2752x8, .i32⟩
  | .hbm, ⟨18, _⟩ => ⟨S4096x2752x8, .i32⟩
  | .hbm, ⟨19, _⟩ => ⟨S4096x22016, .i32⟩
  | .hbm, ⟨20, _⟩ => ⟨S4096x22016, .f32⟩
  | .hbm, ⟨21, _⟩ => ⟨S32x2752x1, .i32⟩
  | .hbm, ⟨22, _⟩ => ⟨S1x1x8, .i32⟩
  | .hbm, ⟨23, _⟩ => ⟨S32x2752x8, .i32⟩
  | .hbm, ⟨24, _⟩ => ⟨S32x2752x8, .i32⟩
  | .hbm, ⟨25, _⟩ => ⟨S32x2752x8, .i32⟩
  | .hbm, ⟨26, _⟩ => ⟨S_, .i32⟩
  | .hbm, ⟨27, _⟩ => ⟨S32x2752x8, .i32⟩
  | .hbm, ⟨28, _⟩ => ⟨S32x2752x8, .i32⟩
  | .hbm, ⟨29, _⟩ => ⟨S32x22016, .i32⟩
  | .hbm, ⟨30, _⟩ => ⟨S32x22016, .f32⟩
  | .hbm, ⟨31, _⟩ => ⟨S32x128x22016, .f32⟩
  | .hbm, ⟨32, _⟩ => ⟨S4096x22016, .f32⟩
  | .hbm, ⟨33, _⟩ => ⟨S32x128x22016, .f32⟩
  | .hbm, ⟨34, _⟩ => ⟨S4096x22016, .f32⟩
  | .hbm, ⟨35, _⟩ => ⟨S4096x22016, .f32⟩
  | .hbm, ⟨36, _⟩ => ⟨S4096x22016, .f32⟩
  | .hbm, ⟨37, _⟩ => ⟨S2x2048x22016, .f32⟩
  | .hbm, ⟨38, _⟩ => ⟨S2x2048x11008, .f32⟩
  | .hbm, ⟨39, _⟩ => ⟨S2x2048x11008, .f32⟩
  | .hbm, ⟨40, _⟩ => ⟨S2x2048x11008, .f32⟩
  | .hbm, ⟨41, _⟩ => ⟨S_, .f32⟩
  | .hbm, ⟨42, _⟩ => ⟨S2x2048x11008, .f32⟩
  | .hbm, ⟨43, _⟩ => ⟨S2x2048x11008, .f32⟩
  | .hbm, ⟨44, _⟩ => ⟨S_, .f32⟩
  | .hbm, ⟨45, _⟩ => ⟨S2x2048x11008, .f32⟩
  | .hbm, ⟨46, _⟩ => ⟨S2x2048x11008, .f32⟩
  | .hbm, ⟨47, _⟩ => ⟨S2x2048x11008, .f32⟩
  | .hbm, ⟨48, _⟩ => ⟨S2x2048x11008, .f32⟩
  | .hbm, ⟨49, _⟩ => ⟨S2x2048x11008, .f32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S11008x512x1, .i32⟩
  | .hbm, ⟨55, _⟩ => ⟨S1x1x8, .i32⟩
  | .hbm, ⟨56, _⟩ => ⟨S11008x512x8, .i32⟩
  | .hbm, ⟨57, _⟩ => ⟨S11008x512x8, .i32⟩
  | .hbm, ⟨58, _⟩ => ⟨S11008x512x8, .i32⟩
  | .hbm, ⟨59, _⟩ => ⟨S_, .i32⟩
  | .hbm, ⟨60, _⟩ => ⟨S11008x512x8, .i32⟩
  | .hbm, ⟨61, _⟩ => ⟨S11008x512x8, .i32⟩
  | .hbm, ⟨62, _⟩ => ⟨S11008x4096, .i32⟩
  | .hbm, ⟨63, _⟩ => ⟨S11008x4096, .f32⟩
  | .hbm, ⟨64, _⟩ => ⟨S86x512x1, .i32⟩
  | .hbm, ⟨65, _⟩ => ⟨S1x1x8, .i32⟩
  | .hbm, ⟨66, _⟩ => ⟨S86x512x8, .i32⟩
  | .hbm, ⟨67, _⟩ => ⟨S86x512x8, .i32⟩
  | .hbm, ⟨68, _⟩ => ⟨S86x512x8, .i32⟩
  | .hbm, ⟨69, _⟩ => ⟨S_, .i32⟩
  | .hbm, ⟨70, _⟩ => ⟨S86x512x8, .i32⟩
  | .hbm, ⟨71, _⟩ => ⟨S86x512x8, .i32⟩
  | .hbm, ⟨72, _⟩ => ⟨S86x4096, .i32⟩
  | .hbm, ⟨73, _⟩ => ⟨S86x4096, .f32⟩
  | .hbm, ⟨74, _⟩ => ⟨S86x128x4096, .f32⟩
  | .hbm, ⟨75, _⟩ => ⟨S11008x4096, .f32⟩
  | .hbm, ⟨76, _⟩ => ⟨S86x128x4096, .f32⟩
  | .hbm, ⟨77, _⟩ => ⟨S11008x4096, .f32⟩
  | .hbm, ⟨78, _⟩ => ⟨S11008x4096, .f32⟩
  | .hbm, ⟨79, _⟩ => ⟨S11008x4096, .f32⟩
  | .hbm, ⟨80, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x2752_S4096x2752x1_0_1 : S4096x2752.BroadcastsInDim S4096x2752x1 (![0, 1] : Fin 2 → Fin S4096x2752x1.rank)
  bcast_S8_S1x1x8_2 : S8.BroadcastsInDim S1x1x8 (![2] : Fin 1 → Fin S1x1x8.rank)
  bcast_S4096x2752x1_S4096x2752x8_0_1_2 : S4096x2752x1.BroadcastsInDim S4096x2752x8 (![0, 1, 2] : Fin 3 → Fin S4096x2752x8.rank)
  bcast_S1x1x8_S4096x2752x8_0_1_2 : S1x1x8.BroadcastsInDim S4096x2752x8 (![0, 1, 2] : Fin 3 → Fin S4096x2752x8.rank)
  bcast_S_S4096x2752x8 : S_.BroadcastsInDim S4096x2752x8 (![] : Fin 0 → Fin S4096x2752x8.rank)
  shapeCasts_S4096x2752x8_S4096x22016 : S4096x2752x8.ShapeCasts S4096x22016
  bcast_S32x2752_S32x2752x1_0_1 : S32x2752.BroadcastsInDim S32x2752x1 (![0, 1] : Fin 2 → Fin S32x2752x1.rank)
  bcast_S32x2752x1_S32x2752x8_0_1_2 : S32x2752x1.BroadcastsInDim S32x2752x8 (![0, 1, 2] : Fin 3 → Fin S32x2752x8.rank)
  bcast_S1x1x8_S32x2752x8_0_1_2 : S1x1x8.BroadcastsInDim S32x2752x8 (![0, 1, 2] : Fin 3 → Fin S32x2752x8.rank)
  bcast_S_S32x2752x8 : S_.BroadcastsInDim S32x2752x8 (![] : Fin 0 → Fin S32x2752x8.rank)
  shapeCasts_S32x2752x8_S32x22016 : S32x2752x8.ShapeCasts S32x22016
  bcast_S32x22016_S32x128x22016_0_2 : S32x22016.BroadcastsInDim S32x128x22016 (![0, 2] : Fin 2 → Fin S32x128x22016.rank)
  shapeCasts_S32x128x22016_S4096x22016 : S32x128x22016.ShapeCasts S4096x22016
  slices_S2x2048x22016_S2x2048x11008_0_0_0 : S2x2048x22016.Slices ![0, 0, 0] S2x2048x11008
  bcast_S_S2x2048x11008 : S_.BroadcastsInDim S2x2048x11008 (![] : Fin 0 → Fin S2x2048x11008.rank)
  slices_S2x2048x22016_S2x2048x11008_0_0_11008 : S2x2048x22016.Slices ![0, 0, 11008] S2x2048x11008
  bcast_S11008x512_S11008x512x1_0_1 : S11008x512.BroadcastsInDim S11008x512x1 (![0, 1] : Fin 2 → Fin S11008x512x1.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  bcast_S86x512_S86x512x1_0_1 : S86x512.BroadcastsInDim S86x512x1 (![0, 1] : Fin 2 → Fin S86x512x1.rank)
  bcast_S86x512x1_S86x512x8_0_1_2 : S86x512x1.BroadcastsInDim S86x512x8 (![0, 1, 2] : Fin 3 → Fin S86x512x8.rank)
  bcast_S1x1x8_S86x512x8_0_1_2 : S1x1x8.BroadcastsInDim S86x512x8 (![0, 1, 2] : Fin 3 → Fin S86x512x8.rank)
  bcast_S_S86x512x8 : S_.BroadcastsInDim S86x512x8 (![] : Fin 0 → Fin S86x512x8.rank)
  shapeCasts_S86x512x8_S86x4096 : S86x512x8.ShapeCasts S86x4096
  bcast_S86x4096_S86x128x4096_0_2 : S86x4096.BroadcastsInDim S86x128x4096 (![0, 2] : Fin 2 → Fin S86x128x4096.rank)
  shapeCasts_S86x128x4096_S11008x4096 : S86x128x4096.ShapeCasts S11008x4096
  dot_S2x2048x4096_S4096x22016_S2x2048x22016_2_0_01_1_n_n_wf : DotDims.WF S2x2048x4096 S4096x22016 S2x2048x22016 [2] [0] [0, 1] [1] [] []
  dot_S2x2048x11008_S11008x4096_S2x2048x4096_2_0_01_1_n_n_wf : DotDims.WF S2x2048x11008 S11008x4096 S2x2048x4096 [2] [0] [0, 1] [1] [] []

variable [Facts₀]

def dot_S2x2048x4096_S4096x22016_S2x2048x22016_2_0_01_1_n_n : DotDims S2x2048x4096 S4096x22016 S2x2048x22016 where
  lhsContracting := [2]
  rhsContracting := [0]
  lhsNonContracting := [0, 1]
  rhsNonContracting := [1]
  lhsBatch := []
  rhsBatch := []
  wf := dot_S2x2048x4096_S4096x22016_S2x2048x22016_2_0_01_1_n_n_wf
def dot_S2x2048x11008_S11008x4096_S2x2048x4096_2_0_01_1_n_n : DotDims S2x2048x11008 S11008x4096 S2x2048x4096 where
  lhsContracting := [2]
  rhsContracting := [0]
  lhsNonContracting := [0, 1]
  rhsNonContracting := [1]
  lhsBatch := []
  rhsBatch := []
  wf := dot_S2x2048x11008_S11008x4096_S2x2048x4096_2_0_01_1_n_n_wf

class Facts : Prop extends Facts₀ where

variable [Facts]
-- ==== Proof.K.DatShape.lean ====
import proofs.«412500_j21947282883010_2_alg».proof.Proof.Gen.Kernel.Launch
import proofs.«412500_j21947282883010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)
open Cert.Kernel Cert.Kernel.Gen

variable {F : FTy → Type} [FloatOps F]

abbrev MM (F : FTy → Type) : Type _ := MT nD τ sig Unit (Elt F) ℕ (UR sig nD τ) ℕ

/-- What every buffer of a core holds. -/
abbrev Contents (F : FTy → Type) : Type := (c : Dev nD) → (b : Ref sig .tc) → Buf (Elt F) ((c : Thread nD τ).loc b)

/-- A pipeline's proof data is fixed by what each staging buffer holds after each point (`aft`) and the invariant
    between points (`phi`): the arrays are the entry contents `V`, every share is full, nothing is owed. -/
def mk0 (aft : Contents F → (c : Dev nD) → (w : Fin cfg0.W) → Fin cfg0.N → (cfg0.win w).block.Idx → Elt F (cfg0.win w).elt)
    (phi : Contents F → (c : Dev nD) → Fin (cfg0.N + 1) → sProp (MM F)) (V : Contents F) (c : Dev nD) :
    Dat τ (Elt F) Unit ℕ (UR sig nD τ) ℕ cfg0 c where
  A w := V c (Pipeline.arrRef spec0 w)
  after := aft V c
  Φ := phi V c
  q _ := fullShare
  owed _ := 0

def mk1 (aft : Contents F → (c : Dev nD) → (w : Fin cfg1.W) → Fin cfg1.N → (cfg1.win w).block.Idx → Elt F (cfg1.win w).elt)
    (phi : Contents F → (c : Dev nD) → Fin (cfg1.N + 1) → sProp (MM F)) (V : Contents F) (c : Dev nD) :
    Dat τ (Elt F) Unit ℕ (UR sig nD τ) ℕ cfg1 c where
  A w := V c (Pipeline.arrRef spec1 w)
  after := aft V c
  Φ := phi V c
  q _ := fullShare
  owed _ := 0

/-- What a block holds once the stores `L` (last first) have landed in it, read through the view `v`. -/
abbrev rdb {S : Shape} {φ : EltTy} (v : View sig .tc .vmem S φ) (L : List (View.Piece (Elt F) S φ)) : Vec F S φ :=
  v.read (Elt F) (v.writes (Elt F) v.junk L)

/-- Stores that tile the block overwrite all of it, so what they leave does not depend on what was there. -/
theorem rdb_canon {S : Shape} {φ : EltTy} (v : View sig .tc .vmem S φ) (L : List (View.Piece (Elt F) S φ))
    (h : View.Piece.tiledL L S.size = true) : rdb v L = View.canon L :=
  View.read_writes_eq_canon _ _ _ (View.cover_of_tiledL L S.size h)

theorem mk0_A (aft phi) (V : Contents F) (c : Dev nD) (w : Fin cfg0.W) : (mk0 aft phi V c).A w = V c (Pipeline.arrRef spec0 w) := rfl
theorem mk1_A (aft phi) (V : Contents F) (c : Dev nD) (w : Fin cfg1.W) : (mk1 aft phi V c).A w = V c (Pipeline.arrRef spec1 w) := rfl

end Cert.Kernel.Hand

end
-- ==== Proof.K.R0Runs.lean ====
import proofs.«412500_j21947282883010_2_alg».proof.Proof.K.DatShape
import proofs.«412500_j21947282883010_2_alg».proof.Proof.Gen.Kernel.Skeleton
import proofs.«412500_j21947282883010_2_alg».proof.Proof.Gen.Kernel.Points
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def iblk0 (V : Contents F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of (V : Contents F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of (V : Contents F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of (V : Contents F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → ¬cond0_1 (grid0.coords t) → cfg0.idle 3 (grid0.coords t) = true := by decide +kernel

theorem noFlush0_3_A : ∀ t : Fin cfg0.N, cond0_0 (grid0.coords t) → ¬cond0_1 (grid0.coords t) → (cfg0.win 3).flush t = false := by decide +kernel

theorem idleAt0_3_B : ∀ t : Fin cfg0.N, ¬cond0_0 (grid0.coords t) → ¬cond0_1 (grid0.coords t) → cfg0.idle 3 (grid0.coords t) = true := by decide +kernel

theorem noFlush0_3_B : ∀ t : Fin cfg0.N, ¬cond0_0 (grid0.coords t) → ¬cond0_1 (grid0.coords t) → (cfg0.win 3).flush t = false := by decide +kernel

theorem liveAt0_3_C : ∀ t : Fin cfg0.N, ¬cond0_0 (grid0.coords t) → cond0_1 (grid0.coords t) → cfg0.idle 3 (grid0.coords t) = false := by decide +kernel

abbrev VO0_3 : View sig .tc .vmem S1024x1024 .bf16 := (Memref.whole cc0_stg3_0 : Memref sig .tc .vmem S1024x1024 .bf16).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)

abbrev scM0_0 : Memref sig .tc .vmem S1024x1024 .f32 := Memref.whole cc0_scratch0
abbrev scM0_1 : Memref sig .tc .vmem S1024x1024 .f32 := Memref.whole cc0_scratch1

abbrev VS0_0 : View sig .tc .vmem S1024x1024 .f32 := scM0_0.view
abbrev VS0_1 : View sig .tc .vmem S1024x1024 .f32 := scM0_1.view

def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA restScoped0; rw [scopedRest0_eq]; simp only [scM0_0, scM0_1, owns_whole]; try rfl

end Cert.Kernel.Hand

end
-- ==== Proof.K.R0RunA.lean ====
import proofs.«412500_j21947282883010_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16)

set_option maxHeartbeats 1000000 in
/-- The body where k = 0: both accumulators are overwritten before they are read, so they may hold anything; the
    output block is handed back as found. The stores each buffer receives are the witness, last first. -/
noncomputable def kernelRun0_A (hc0 : cond0_0 i) (hc1 : ¬cond0_1 i) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0RunB.lean ====
import proofs.«412500_j21947282883010_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16) (xs0 xs1 : Vec F S1024x1024 .f32)

set_option maxHeartbeats 1000000 in
/-- The body where 0 < k < 3: each accumulator is read at `xs0`, `xs1` and stored with its product added; the output
    block is handed back as found. -/
noncomputable def kernelRun0_B (hc0 : ¬cond0_0 i) (hc1 : ¬cond0_1 i) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0RunC.lean ====
import proofs.«412500_j21947282883010_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16) (xs0 xs1 : Vec F S1024x1024 .f32)

set_option maxHeartbeats 1000000 in
/-- The body where k = 3: as for 0 < k < 3, and then the output block is stored over whatever it held. -/
noncomputable def kernelRun0_C (hc0 : ¬cond0_0 i) (hc1 : cond0_1 i) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.K.R0Body.lean ====
import proofs.«412500_j21947282883010_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Contents F) (c : Dev nD)

/-- The body's run at point `t`, by the value of k = t mod 4, on the point's own staging buffers and blocks; `xs` is
    what the point before left in the two accumulators. -/
def runA (t : Fin cfg0.N) (h0 : t.val % 4 = 0) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) ((hcond0_0 t).mpr h0) (fun h => by have := (hcond0_1 t).mp h; omega)
def runB (t : Fin cfg0.N) (h0 : ¬t.val % 4 = 0) (h1 : ¬t.val % 4 = 3) (xs : Vec F S1024x1024 .f32 × Vec F S1024x1024 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) xs.1 xs.2 (fun h => h0 ((hcond0_0 t).mp h)) (fun h => h1 ((hcond0_1 t).mp h))
def runC (t : Fin cfg0.N) (h0 : ¬t.val % 4 = 0) (h1 : t.val % 4 = 3) (xs : Vec F S1024x1024 .f32 × Vec F S1024x1024 .f32) :=
  kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) xs.1 xs.2 (fun h => h0 ((hcond0_0 t).mp h)) ((hcond0_1 t).mpr h1)

/-- What point `t` leaves in the output block's buffer, the gate accumulator and the up accumulator. -/
def step0 (t : Fin cfg0.N) (xs : Vec F S1024x1024 .f32 × Vec F S1024x1024 .f32) : Vec F S1024x1024 .bf16 × Vec F S1024x1024 .f32 × Vec F S1024x1024 .f32 :=
  if h0 : t.val % 4 = 0 then
    (rdb VO0_3 (runA V c t h0).1, rdb VS0_0 (runA V c t h0).2.1, rdb VS0_1 (runA V c t h0).2.2.1)
  else if h1 : t.val % 4 = 3 then
    (rdb VO0_3 (runC V c t h0 h1 xs).1, rdb VS0_0 (runC V c t h0 h1 xs).2.1, rdb VS0_1 (runC V c t h0 h1 xs).2.2.1)
  else
    (rdb VO0_3 (runB V c t h0 h1 xs).1, rdb VS0_0 (runB V c t h0 h1 xs).2.1, rdb VS0_1 (runB V c t h0 h1 xs).2.2.1)

/-- The three buffers after each point, the accumulators carried from one point to the next. -/
def outsAt0 : (n : ℕ) → n < cfg0.N → Vec F S1024x1024 .bf16 × Vec F S1024x1024 .f32 × Vec F S1024x1024 .f32
  | 0, hn => step0 V c ⟨0, hn⟩ (rdb VS0_0 [], rdb VS0_1 [])
  | n + 1, hn => step0 V c ⟨n + 1, hn⟩ (outsAt0 n (Nat.lt_of_succ_lt hn)).2

theorem pred_lt0 (t : Fin cfg0.N) : t.val - 1 < cfg0.N := Nat.lt_of_le_of_lt (Nat.sub_le _ _) t.isLt

theorem outsAt0_A (t : Fin cfg0.N) (h0 : t.val % 4 = 0) :
    outsAt0 V c t.val t.isLt = (rdb VO0_3 (runA V c t h0).1, rdb VS0_0 (runA V c t h0).2.1, rdb VS0_1 (runA V c t h0).2.2.1) := by
  obtain ⟨n, hn⟩ := t
  cases n <;> (show step0 V c _ _ = _; unfold step0; exact dif_pos h0)

theorem outsAt0_B (t : Fin cfg0.N) (h0 : ¬t.val % 4 = 0) (h1 : ¬t.val % 4 = 3) :
    outsAt0 V c t.val t.isLt = (rdb VO0_3 (runB V c t h0 h1 (outsAt0 V c (t.val - 1) (pred_lt0 t)).2).1, rdb VS0_0 (runB V c t h0 h1 (outsAt0 V c (t.val - 1) (pred_lt0 t)).2).2.1, rdb VS0_1 (runB V c t h0 h1 (outsAt0 V c (t.val - 1) (pred_lt0 t)).2).2.2.1) := by
  obtain ⟨n, hn⟩ := t
  cases n with
  | zero => exact absurd rfl h0
  | succ n => show step0 V c _ _ = _; unfold step0; exact (dif_neg h0).trans ((dif_neg h1).trans rfl)

theorem outsAt0_C (t : Fin cfg0.N) (h0 : ¬t.val % 4 = 0) (h1 : t.val % 4 = 3) :
    outsAt0 V c t.val t.isLt = (rdb VO0_3 (runC V c t h0 h1 (outsAt0 V c (t.val - 1) (pred_lt0 t)).2).1, rdb VS0_0 (runC V c t h0 h1 (outsAt0 V c (t.val - 1) (pred_lt0 t)).2).2.1, rdb VS0_1 (runC V c t h0 h1 (outsAt0 V c (t.val - 1) (pred_lt0 t)).2).2.2.1) := by
  obtain ⟨n, hn⟩ := t
  cases n with
  | zero => exact absurd rfl h0
  | succ n => show step0 V c _ _ = _; unfold step0; exact (dif_neg h0).trans ((dif_pos h1).trans rfl)

/-- The invariant before position `n`: the launch's own before the first point; afterwards the same with each
    accumulator at what the point before left in it. -/
def PhiS0 : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restScoped0 (F := F) c) ∗ (∃ r, prngReg c r))

theorem PhiS_pos (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ restScoped0 (F := F) c) ∗ (∃ r, prngReg c r)) := by
  cases n with
  | zero => exact absurd rfl hz
  | succ n => rfl

/-- At every position the invariant yields both accumulators at some contents. -/
theorem PhiS_any (n : ℕ) (h : n ≤ cfg0.N) :
    PhiS0 V c n h ⊢ iprop(iprop((∃ d, owns (c : Thread nD τ) scM0_0 fullShare d) ∗ (∃ d, owns (c : Thread nD τ) scM0_1 fullShare d) ∗ restScoped0 (F := F) c) ∗ (∃ r, prngReg c r)) := by
  cases n with
  | zero => show (Pipeline.ΦA spec0 c : sProp 𝕄) ⊢ _; rw [PhiA0_eq]; try exact .rfl
  | succ n =>
    show iprop(iprop(owns (c : Thread nD τ) scM0_0 fullShare _ ∗ owns (c : Thread nD τ) scM0_1 fullShare _ ∗ restScoped0 (F := F) c) ∗ (∃ r, prngReg c r)) ⊢ _
    iintro ⟨⟨HS0, HS1, HR⟩, Hg⟩
    iframe HR Hg
    isplitl [HS0] <;> (iexists _; iassumption)

/-- After the body at point `t` an input's buffer still holds its block; the output's holds `outsAt0`'s first component. -/
def aft0 : Contents F → (c : Dev nD) → (w : Fin cfg0.W) → Fin cfg0.N → (cfg0.win w).block.Idx → Elt F (cfg0.win w).elt :=
  fun V c w t => match w with
    | ⟨0, _⟩ => iblk0 V c 0 t
    | ⟨1, _⟩ => iblk0 V c 1 t
    | ⟨2, _⟩ => iblk0 V c 2 t
    | ⟨3, _⟩ => (outsAt0 V c t.val t.isLt).1

def phi0 : Contents F → (c : Dev nD) → Fin (cfg0.N + 1) → sProp (MM F) :=
  fun V c t => PhiS0 V c t.val (Nat.le_of_lt_succ t.isLt)

/-- The gate/up pipeline's proof data on core `c`, at the region-entry contents `V`. -/
abbrev dat0 := mk0 aft0 phi0 V c

theorem A_eq0 (w : Fin cfg0.W) : (dat0 V c).A w = V c (Pipeline.arrRef spec0 w) := mk0_A aft0 phi0 V c w

theorem PhiS_castSucc0 (t : Fin cfg0.N) : (dat0 V c).Φ t.castSucc = PhiS0 V c t.val (Nat.le_of_lt t.isLt) := by
  dsimp only [dat0, mk0, phi0]; simp only [Fin.coe_castSucc]

theorem after0_0 (t : Fin cfg0.N) : (dat0 V c).after 0 t = iblk0 V c 0 t := by dsimp only [dat0, mk0, aft0]
theorem after0_1 (t : Fin cfg0.N) : (dat0 V c).after 1 t = iblk0 V c 1 t := by dsimp only [dat0, mk0, aft0]
theorem after0_2 (t : Fin cfg0.N) : (dat0 V c).after 2 t = iblk0 V c 2 t := by dsimp only [dat0, mk0, aft0]
theorem after0_3 (t : Fin cfg0.N) : (dat0 V c).after 3 t = (outsAt0 V c t.val t.isLt).1 := by dsimp only [dat0, mk0, aft0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

/-- What the body is called with at point `t`, the windows one by one, -/
def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: by k = t mod 4 one of the three runs, fed the accumulators as the invariant names them (at
    anything where k = 0) and giving them back at this point's contents, since whole-block stores cover them; the
    output block goes back untouched where k < 3. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl,
    show PhiS0 V c (t.val + 1) t.isLt = iprop(iprop(owns (c : Thread nD τ) scM0_0 fullShare ((outsAt0 V c t.val t.isLt).2.1) ∗ owns (c : Thread nD τ) scM0_1 fullShare ((outsAt0 V c t.val t.isLt).2.2) ∗ restScoped0 (F := F) c) ∗ (∃ r, prngReg c r)) from rfl,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2,
    PhiS_castSucc0 V c t]
  have hN : t.val < 176 := lt_of_lt_of_eq t.isLt (show cfg0.N = 176 from N_0)
  by_cases h0 : t.val % 4 = 0
  · rw [Dat.leavesExact_idle (dat0 V c) 3 t (idleAt0_3_A t ((hcond0_0 t).mpr h0) (fun h => by have := (hcond0_1 t).mp h; omega)) (noFlush0_3_A t ((hcond0_0 t).mpr h0) (fun h => by have := (hcond0_1 t).mp h; omega)),
      outsAt0_A V c t h0]
    dsimp only
    iintro ⟨HΦ, Ho, ⟨%d0, H0⟩, ⟨%d1, H1⟩, ⟨%d2, H2⟩, ⟨%d3, H3⟩⟩
    ihave HΦ := (PhiS_any V c t.val (Nat.le_of_lt t.isLt)) $$ HΦ
    icases HΦ with ⟨⟨HS0, HS1, HR⟩, Hg⟩
    iapply ((runA V c t h0).2.2.2 _ Set.univ _)
    iframe H0 H1 H2 HS0 HS1
    isplitl [H3]; · iexact H3
    iintro ⟨H0, H1, H2, H3, ⟨%e0, HS0⟩, ⟨%e1, HS1⟩⟩
    iframe HR Hg Ho H0 H1 H2
    isplitl [HS0 HS1]
    · isplitl [HS0]
      · ihave H' := (Ring.owns_of_writes_tiledL VS0_0 S1024x1024.size) $$ HS0; iapply H'; ipureintro; sl_kernel_rfl
      ihave H' := (Ring.owns_of_writes_tiledL VS0_1 S1024x1024.size) $$ HS1; iapply H'; ipureintro; sl_kernel_rfl
    iexists _; iexact H3
  · have hz : t.val ≠ 0 := by omega
    rw [PhiS_pos V c _ _ hz]
    by_cases h1 : t.val % 4 = 3
    · rw [show (dat0 V c).leavesExact 3 t = owns (c : Thread nD τ) (ms0_3 t) fullShare ((dat0 V c).after 3 t) from by
          unfold Dat.leavesExact; rw [liveAt0_3_C t (fun h => h0 ((hcond0_0 t).mp h)) ((hcond0_1 t).mpr h1)], after0_3,
        outsAt0_C V c t h0 h1]
      dsimp only
      iintro ⟨⟨⟨HS0, HS1, HR⟩, Hg⟩, Ho, ⟨%d0, H0⟩, ⟨%d1, H1⟩, ⟨%d2, H2⟩, ⟨%d3, H3⟩⟩
      iapply ((runC V c t h0 h1 _).2.2.2 Set.univ _)
      iframe H0 H1 H2 HS0 HS1
      isplitl [H3]; · iexists _; iexact H3
      iintro ⟨H0, H1, H2, ⟨%e3, H3⟩, ⟨%e0, HS0⟩, ⟨%e1, HS1⟩⟩
      iframe HR Hg Ho H0 H1 H2
      isplitl [HS0 HS1]
      · isplitl [HS0]
        · ihave H' := (Ring.owns_of_writes_tiledL VS0_0 S1024x1024.size) $$ HS0; iapply H'; ipureintro; sl_kernel_rfl
        ihave H' := (Ring.owns_of_writes_tiledL VS0_1 S1024x1024.size) $$ HS1; iapply H'; ipureintro; sl_kernel_rfl
      ihave H' := (Ring.owns_of_writes_tiledL VO0_3 S1024x1024.size) $$ H3; iapply H'; ipureintro; sl_kernel_rfl
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h))),
        outsAt0_B V c t h0 h1]
      dsimp only
      iintro ⟨⟨⟨HS0, HS1, HR⟩, Hg⟩, Ho, ⟨%d0, H0⟩, ⟨%d1, H1⟩, ⟨%d2, H2⟩, ⟨%d3, H3⟩⟩
      iapply ((runB V c t h0 h1 _).2.2.2 _ Set.univ _)
      iframe H0 H1 H2 HS0 HS1
      isplitl [H3]; · iexact H3
      iintro ⟨H0, H1, H2, H3, ⟨%e0, HS0⟩, ⟨%e1, HS1⟩⟩
      iframe HR Hg Ho H0 H1 H2
      isplitl [HS0 HS1]
      · isplitl [HS0]
        · ihave H' := (Ring.owns_of_writes_tiledL VS0_0 S1024x1024.size) $$ HS0; iapply H'; ipureintro; sl_kernel_rfl
        ihave H' := (Ring.owns_of_writes_tiledL VS0_1 S1024x1024.size) $$ HS1; iapply H'; ipureintro; sl_kernel_rfl
      iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ phi0 V c 0 := .rfl

theorem hout0 : phi0 V c (Fin.last cfg0.N) ⊢ Pipeline.ΦA spec0 c := by
  rw [PhiA0_eq]; exact PhiS_any V c _ _

end Cert.Kernel.Hand

end
-- ==== Proof.K.R1Runs.lean ====
import proofs.«412500_j21947282883010_2_alg».proof.Proof.K.DatShape
import proofs.«412500_j21947282883010_2_alg».proof.Proof.Gen.Kernel.Skeleton
import proofs.«412500_j21947282883010_2_alg».proof.Proof.Gen.Kernel.Points
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

def iblk1 (V : Contents F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of (V : Contents F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (V : Contents F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 11 = 0 :=
  (by decide +kernel : ∀ t : Fin grid1.N, cond1_0 (grid1.coords t) ↔ t.val % 11 = 0)

abbrev cond1_1 (i : grid1.Coords) : Prop := k1_cond2 i = 1#1

theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel

theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1024x1024 .f32 := (Memref.whole cc1_stg2_0 : Memref sig .tc .vmem S1024x1024 .f32).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

abbrev scM1_0 : Memref sig .tc .vmem S1024x1024 .f32 := Memref.whole cc1_scratch0

abbrev VS1_0 : View sig .tc .vmem S1024x1024 .f32 := scM1_0.view

def withOthers1 (c : Dev nD) (P : sProp (MM F)) : sProp (MM F) :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ P)

theorem withOthers1_mono (c : Dev nD) {P Q : sProp (MM F)} (h : P ⊢ Q) : withOthers1 c P ⊢ withOthers1 c Q := by
  unfold withOthers1
  iintro ⟨R0, R1, R2, R3, R4, R5, R6, R7, R8, R9, HP⟩
  iframe R0 R1 R2 R3 R4 R5 R6 R7 R8 R9
  iapply h; iexact HP

theorem PhiA1_eq (c : Dev nD) :
    (Pipeline.ΦA spec1 c : sProp (MM F))
      = iprop(withOthers1 c (iprop(∃ d, owns (c : Thread nD τ) scM1_0 fullShare d)) ∗ (∃ r, prngReg c r)) := by
  unfold Pipeline.ΦA withOthers1; rw [scopedRest1_eq]; simp only [scM1_0, owns_whole]; try rfl

end Cert.Kernel.Hand

end
-- ==== Proof.K.R1RunA.lean ====
import proofs.«412500_j21947282883010_2_alg».proof.Proof.K.R1Runs

-- membership in a rectangle of 1024 x 1024 elements: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16)

set_option maxHeartbeats 1000000 in
/-- The body at the first reduction step: the accumulator is overwritten before it is read, so it may hold anything;
    the output block is handed back as found. The stores each buffer receives are the witness, last first. -/
noncomputable def kernelRun1_A (hc0 : cond1_0 i) (hc1 : ¬cond1_1 i) :
    Σ' (L2 : List (View.Piece (Elt F) S1024x1024 .f32)), { LS0 : List (View.Piece (Elt F) S1024x1024 .f32) //
      ∀ (xi2 : Vec F S1024x1024 .f32) (E : Set ℕ) (K : PUnit → sProp (MM F)),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunB.lean ====
import proofs.«412500_j21947282883010_2_alg».proof.Proof.K.R1RunA

-- membership in a rectangle of 1024 x 1024 elements: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16) (xs0 : Vec F S1024x1024 .f32)

set_option maxHeartbeats 1000000 in
/-- The body at a middle reduction step: the accumulator is read at `xs0` and stored with the product added; the
    output block is handed back as found. -/
noncomputable def kernelRun1_B (hc0 : ¬cond1_0 i) (hc1 : ¬cond1_1 i) :
    Σ' (L2 : List (View.Piece (Elt F) S1024x1024 .f32)), { LS0 : List (View.Piece (Elt F) S1024x1024 .f32) //
      ∀ (xi2 : Vec F S1024x1024 .f32) (E : Set ℕ) (K : PUnit → sProp (MM F)),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunC.lean ====
import proofs.«412500_j21947282883010_2_alg».proof.Proof.K.R1RunB

-- membership in a rectangle of 1024 x 1024 elements: the elaborator's structural look recurses once per
-- coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16) (xs0 : Vec F S1024x1024 .f32)

set_option maxHeartbeats 1000000 in
/-- The body at the last reduction step: as at a middle one, and then the output block is stored over whatever it held. -/
noncomputable def kernelRun1_C (hc0 : ¬cond1_0 i) (hc1 : cond1_1 i) :
    Σ' (L2 : List (View.Piece (Elt F) S1024x1024 .f32)), { LS0 : List (View.Piece (Elt F) S1024x1024 .f32) //
      ∀ (E : Set ℕ) (K : PUnit → sProp (MM F)),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.R1Body.lean ====
import proofs.«412500_j21947282883010_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : Contents F) (c : Dev nD)

/-- The body's run at point `t`, by the reduction step k = t mod 11, on the point's own staging buffers and blocks;
    `xs` is what the point before left in the accumulator. -/
def run1A (t : Fin cfg1.N) (h0 : t.val % 11 = 0) :=
  kernelRun1_A c (grid1.coords t) (ms1_0 t) (hs1_0 t) (ms1_1 t) (hs1_1 t) (ms1_2 t) (hs1_2 t) scM1_0 (Memref.isWhole_whole _) (iblk1 V c 0 t) (iblk1 V c 1 t) ((hcond1_0 t).mpr h0) (fun h => by have := (hcond1_1 t).mp h; omega)
def run1B (t : Fin cfg1.N) (h0 : ¬t.val % 11 = 0) (h1 : ¬t.val % 11 = 10) (xs : Vec F S1024x1024 .f32) :=
  kernelRun1_B c (grid1.coords t) (ms1_0 t) (hs1_0 t) (ms1_1 t) (hs1_1 t) (ms1_2 t) (hs1_2 t) scM1_0 (Memref.isWhole_whole _) (iblk1 V c 0 t) (iblk1 V c 1 t) xs (fun h => h0 ((hcond1_0 t).mp h)) (fun h => h1 ((hcond1_1 t).mp h))
def run1C (t : Fin cfg1.N) (h0 : ¬t.val % 11 = 0) (h1 : t.val % 11 = 10) (xs : Vec F S1024x1024 .f32) :=
  kernelRun1_C c (grid1.coords t) (ms1_0 t) (hs1_0 t) (ms1_1 t) (hs1_1 t) (ms1_2 t) (hs1_2 t) scM1_0 (Memref.isWhole_whole _) (iblk1 V c 0 t) (iblk1 V c 1 t) xs (fun h => h0 ((hcond1_0 t).mp h)) ((hcond1_1 t).mpr h1)

/-- What point `t` leaves in the output block's buffer and in the accumulator. -/
def step1 (t : Fin cfg1.N) (xs : Vec F S1024x1024 .f32) : Vec F S1024x1024 .f32 × Vec F S1024x1024 .f32 :=
  if h0 : t.val % 11 = 0 then (rdb VO1_2 (run1A V c t h0).1, rdb VS1_0 (run1A V c t h0).2.1)
  else if h1 : t.val % 11 = 10 then (rdb VO1_2 (run1C V c t h0 h1 xs).1, rdb VS1_0 (run1C V c t h0 h1 xs).2.1)
  else (rdb VO1_2 (run1B V c t h0 h1 xs).1, rdb VS1_0 (run1B V c t h0 h1 xs).2.1)

/-- The two buffers after each point, the accumulator carried from one point to the next. -/
def outsAt1 : (n : ℕ) → n < cfg1.N → Vec F S1024x1024 .f32 × Vec F S1024x1024 .f32
  | 0, hn => step1 V c ⟨0, hn⟩ (rdb VS1_0 [])
  | n + 1, hn => step1 V c ⟨n + 1, hn⟩ (outsAt1 n (Nat.lt_of_succ_lt hn)).2

theorem pred_lt1 (t : Fin cfg1.N) : t.val - 1 < cfg1.N := Nat.lt_of_le_of_lt (Nat.sub_le _ _) t.isLt

theorem outsAt1_A (t : Fin cfg1.N) (h0 : t.val % 11 = 0) :
    outsAt1 V c t.val t.isLt = (rdb VO1_2 (run1A V c t h0).1, rdb VS1_0 (run1A V c t h0).2.1) := by
  obtain ⟨n, hn⟩ := t
  cases n <;> (show step1 V c _ _ = _; unfold step1; exact dif_pos h0)

theorem outsAt1_B (t : Fin cfg1.N) (h0 : ¬t.val % 11 = 0) (h1 : ¬t.val % 11 = 10) :
    outsAt1 V c t.val t.isLt = (rdb VO1_2 (run1B V c t h0 h1 (outsAt1 V c (t.val - 1) (pred_lt1 t)).2).1, rdb VS1_0 (run1B V c t h0 h1 (outsAt1 V c (t.val - 1) (pred_lt1 t)).2).2.1) := by
  obtain ⟨n, hn⟩ := t
  cases n with
  | zero => exact absurd rfl h0
  | succ n => show step1 V c _ _ = _; unfold step1; exact (dif_neg h0).trans ((dif_neg h1).trans rfl)

theorem outsAt1_C (t : Fin cfg1.N) (h0 : ¬t.val % 11 = 0) (h1 : t.val % 11 = 10) :
    outsAt1 V c t.val t.isLt = (rdb VO1_2 (run1C V c t h0 h1 (outsAt1 V c (t.val - 1) (pred_lt1 t)).2).1, rdb VS1_0 (run1C V c t h0 h1 (outsAt1 V c (t.val - 1) (pred_lt1 t)).2).2.1) := by
  obtain ⟨n, hn⟩ := t
  cases n with
  | zero => exact absurd rfl h0
  | succ n => show step1 V c _ _ = _; unfold step1; exact (dif_neg h0).trans ((dif_pos h1).trans rfl)

/-- The invariant before position `n`: the class's own before the first point; afterwards the same with the accumulator
    at what the point before left in it. -/
def PhiS1 : (n : ℕ) → n ≤ cfg1.N → sProp (MM F)
  | 0, _ => Pipeline.ΦA spec1 c
  | n + 1, hn => iprop(withOthers1 c (owns (c : Thread nD τ) scM1_0 fullShare ((outsAt1 V c n hn).2)) ∗ (∃ r, prngReg c r))

theorem PhiS1_pos (n : ℕ) (h : n ≤ cfg1.N) (hz : n ≠ 0) :
    PhiS1 V c n h = iprop(withOthers1 c (owns (c : Thread nD τ) scM1_0 fullShare ((outsAt1 V c (n - 1) (by omega)).2)) ∗ (∃ r, prngReg c r)) := by
  cases n with
  | zero => exact absurd rfl hz
  | succ n => rfl

/-- At every position the invariant yields the accumulator at some contents. -/
theorem PhiS1_any (n : ℕ) (h : n ≤ cfg1.N) :
    PhiS1 V c n h ⊢ iprop(withOthers1 c (iprop(∃ d, owns (c : Thread nD τ) scM1_0 fullShare d)) ∗ (∃ r, prngReg c r)) := by
  cases n with
  | zero => show (Pipeline.ΦA spec1 c : sProp (MM F)) ⊢ _; rw [PhiA1_eq]; try exact .rfl
  | succ n =>
    show iprop(withOthers1 c (owns (c : Thread nD τ) scM1_0 fullShare _) ∗ (∃ r, prngReg c r)) ⊢ _
    have hS : ∀ X, (owns (c : Thread nD τ) scM1_0 fullShare X : sProp (MM F)) ⊢ iprop(∃ d, owns (c : Thread nD τ) scM1_0 fullShare d) := fun X => by
      iintro H; iexists _; iexact H
    iintro ⟨HS0, Hg⟩
    isplitl [HS0]
    · iapply (withOthers1_mono c (hS _)); iexact HS0
    iexact Hg

/-- After the body at point `t` an input's buffer still holds its block; the output's holds `outsAt1`'s first component. -/
def aft1 : Contents F → (c : Dev nD) → (w : Fin cfg1.W) → Fin cfg1.N → (cfg1.win w).block.Idx → Elt F (cfg1.win w).elt :=
  fun V c w t => match w with
    | ⟨0, _⟩ => iblk1 V c 0 t
    | ⟨1, _⟩ => iblk1 V c 1 t
    | ⟨2, _⟩ => (outsAt1 V c t.val t.isLt).1

def phi1 : Contents F → (c : Dev nD) → Fin (cfg1.N + 1) → sProp (MM F) := fun V c t => PhiS1 V c t.val (Nat.le_of_lt_succ t.isLt)

/-- The down projection's proof data on core `c`, at the region-entry contents `V`. -/
abbrev dat1 := mk1 aft1 phi1 V c

theorem A_eq1 (w : Fin cfg1.W) : (dat1 V c).A w = V c (Pipeline.arrRef spec1 w) := mk1_A _ _ V c w

theorem PhiS1_castSucc (t : Fin cfg1.N) : (dat1 V c).Φ t.castSucc = PhiS1 V c t.val (Nat.le_of_lt t.isLt) := by
  dsimp only [dat1, mk1, phi1]; simp only [Fin.coe_castSucc]

theorem after1_0 (t : Fin cfg1.N) : (dat1 V c).after 0 t = iblk1 V c 0 t := by dsimp only [dat1, mk1, aft1]
theorem after1_1 (t : Fin cfg1.N) : (dat1 V c).after 1 t = iblk1 V c 1 t := by dsimp only [dat1, mk1, aft1]
theorem after1_2 (t : Fin cfg1.N) : (dat1 V c).after 2 t = (outsAt1 V c t.val t.isLt).1 := by dsimp only [dat1, mk1, aft1]

theorem before1_0 (t : Fin cfg1.N) (d) : (dat1 V c).before 0 t d = iblk1 V c 0 t :=
  before1_0_of V (dat1 V c) (A_eq1 V c 0) (after1_0 V c) t d
theorem before1_1 (t : Fin cfg1.N) (d) : (dat1 V c).before 1 t d = iblk1 V c 1 t :=
  before1_1_of V (dat1 V c) (A_eq1 V c 1) (after1_1 V c) t d

/-- What the body is called with at point `t`, the windows one by one, -/
def bodyPre1 (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (t : Fin cfg1.N) : sProp (MM F) :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: by k = t mod 11 one of the three runs, fed the accumulator as the invariant names it (at
    anything where k = 0) and giving it back at this point's contents, since a whole-block store covers it; the other
    pipeline's buffers pass through; the output block goes back untouched where k < 10. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl,
    show PhiS1 V c (t.val + 1) t.isLt = iprop(withOthers1 c (owns (c : Thread nD τ) scM1_0 fullShare ((outsAt1 V c t.val t.isLt).2)) ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    PhiS1_castSucc V c t]
  have hN : t.val < 176 := lt_of_lt_of_eq t.isLt (show cfg1.N = 176 from N_1)
  by_cases h0 : t.val % 11 = 0
  · rw [Dat.leavesExact_idle (dat1 V c) 2 t (idleAt1_2_A t ((hcond1_0 t).mpr h0) (fun h => by have := (hcond1_1 t).mp h; omega)) (noFlush1_2_A t ((hcond1_0 t).mpr h0) (fun h => by have := (hcond1_1 t).mp h; omega)),
      outsAt1_A V c t h0]
    dsimp only
    iintro ⟨HΦ, Ho, ⟨%d0, H0⟩, ⟨%d1, H1⟩, ⟨%d2, H2⟩⟩
    ihave HΦ := (PhiS1_any V c t.val (Nat.le_of_lt t.isLt)) $$ HΦ
    unfold withOthers1
    icases HΦ with ⟨⟨R0, R1, R2, R3, R4, R5, R6, R7, R8, R9, HS0⟩, Hg⟩
    iapply ((run1A V c t h0).2.2 _ Set.univ _)
    iframe H0 H1 HS0
    isplitl [H2]; · iexact H2
    iintro ⟨H0, H1, H2, ⟨%e0, HS0⟩⟩
    iframe R0 R1 R2 R3 R4 R5 R6 R7 R8 R9 Hg Ho H0 H1
    isplitl [HS0]
    · ihave H' := (Ring.owns_of_writes_tiledL VS1_0 S1024x1024.size) $$ HS0; iapply H'; ipureintro; sl_kernel_rfl
    iexists _; iexact H2
  · have hz : t.val ≠ 0 := by omega
    rw [PhiS1_pos V c _ _ hz]
    unfold withOthers1
    by_cases h1 : t.val % 11 = 10
    · rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2,
        outsAt1_C V c t h0 h1]
      dsimp only
      iintro ⟨⟨⟨R0, R1, R2, R3, R4, R5, R6, R7, R8, R9, HS0⟩, Hg⟩, Ho, ⟨%d0, H0⟩, ⟨%d1, H1⟩, ⟨%d2, H2⟩⟩
      iapply ((run1C V c t h0 h1 _).2.2 Set.univ _)
      iframe H0 H1 HS0
      isplitl [H2]; · iexists _; iexact H2
      iintro ⟨H0, H1, ⟨%e2, H2⟩, ⟨%e0, HS0⟩⟩
      iframe R0 R1 R2 R3 R4 R5 R6 R7 R8 R9 Hg Ho H0 H1
      isplitl [HS0]
      · ihave H' := (Ring.owns_of_writes_tiledL VS1_0 S1024x1024.size) $$ HS0; iapply H'; ipureintro; sl_kernel_rfl
      ihave H' := (Ring.owns_of_writes_tiledL VO1_2 S1024x1024.size) $$ H2; iapply H'; ipureintro; sl_kernel_rfl
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h))),
        outsAt1_B V c t h0 h1]
      dsimp only
      iintro ⟨⟨⟨R0, R1, R2, R3, R4, R5, R6, R7, R8, R9, HS0⟩, Hg⟩, Ho, ⟨%d0, H0⟩, ⟨%d1, H1⟩, ⟨%d2, H2⟩⟩
      iapply ((run1B V c t h0 h1 _).2.2 _ Set.univ _)
      iframe H0 H1 HS0
      isplitl [H2]; · iexact H2
      iintro ⟨H0, H1, H2, ⟨%e0, HS0⟩⟩
      iframe R0 R1 R2 R3 R4 R5 R6 R7 R8 R9 Hg Ho H0 H1
      isplitl [HS0]
      · ihave H' := (Ring.owns_of_writes_tiledL VS1_0 S1024x1024.size) $$ HS0; iapply H'; ipureintro; sl_kernel_rfl
      iexists _; iexact H2

theorem body_obligation1 : BodyObligation (dat1 (F := F) V c) (defs₀ (F := F)) Variants.none () Set.univ := fun t => by
  rw [bigSep_W1, bigSep_W1]
  exact sound_body1 V c t

theorem hin1 : Pipeline.ΦA spec1 c ⊢ phi1 V c 0 := .rfl

theorem hout1 : phi1 V c (Fin.last cfg1.N) ⊢ Pipeline.ΦA spec1 c := by
  rw [PhiA1_eq]; exact PhiS1_any V c _ _

end Cert.Kernel.Hand

end
-- ==== Proof.K.Launch.lean ====
import proofs.«412500_j21947282883010_2_alg».proof.Proof.K.RunCond
import proofs.«412500_j21947282883010_2_alg».proof.Proof.K.R0Body
import proofs.«412500_j21947282883010_2_alg».proof.Proof.K.R1Body

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Launch

attribute [local irreducible] aft0 phi0 aft1 phi1

variable (m : (ℓ : Loc nD τ sig) → Buf (Elt F) ℓ)

def entry0 : Contents F := fun c b => Gen.V19 m c (Proc.devRef .tc b)

def res0 (c : Dev nD) : Buf (Elt F) ((c : Thread nD τ).loc main_v101) :=
  (dat0 (entry0 m) c).arrAt 3 cfg0.N

def entry1 : Contents F := fun c b =>
  (Function.update (Gen.V19 m c) (Proc.devRef .tc main_v101) (res0 m c)) (Proc.devRef .tc b)

def res1 (c : Dev nD) : Buf (Elt F) ((c : Thread nD τ).loc main_v102) :=
  (dat1 (entry1 m) c).arrAt 2 cfg1.N

theorem entry1_of_ne (c : Dev nD) (b : Ref sig .tc) (hb : b ≠ main_v101) : entry1 m c b = entry0 m c b := by
  unfold entry1 entry0
  exact Function.update_of_ne (StableHlo.devRef_ne_of_ne hb) _ _

theorem entry1_v101 (c : Dev nD) : entry1 m c main_v101 = res0 m c := by
  unfold entry1
  exact Function.update_self _ _ _

def outsOf : Gen.Outs (F := F) := fun _ r c =>
  if h : r = main_v101 then h ▸ res0 m c
  else if h' : r = main_v102 then h' ▸ res1 m c
  else Gen.V19 m c (Proc.devRef .tc r)

theorem outsOf_v101 (j : ℕ) (c : Dev nD) : outsOf m j main_v101 c = res0 m c := by
  unfold outsOf; rw [dif_pos rfl]

theorem outsOf_v102 (j : ℕ) (c : Dev nD) : outsOf m j main_v102 c = res1 m c := by
  unfold outsOf; rw [dif_neg (by decide), dif_pos rfl]

theorem V20_outsOf (c : Dev nD) : Gen.V20 m (outsOf m) c
    = Function.update (Gen.V19 m c) (Proc.devRef .tc main_v101) (res0 m c) := by
  show Function.update (Gen.V19 m c) (Proc.devRef .tc main_v101) (outsOf m 20 main_v101 c) = _
  rw [outsOf_v101]

theorem V21_outsOf (c : Dev nD) : Gen.V21 m (outsOf m) c
    = Function.update (Function.update (Gen.V19 m c) (Proc.devRef .tc main_v101) (res0 m c))
        (Proc.devRef .tc main_v102) (res1 m c) := by
  show Function.update (Gen.V20 m (outsOf m) c) (Proc.devRef .tc main_v102) (outsOf m 21 main_v102 c) = _
  rw [outsOf_v102, V20_outsOf]

theorem entry1_eq_V20 (c : Dev nD) (b : Ref sig .tc) :
    entry1 m c b = Gen.V20 m (outsOf m) c (Proc.devRef .tc b) := by
  rw [V20_outsOf]; rfl

theorem result_eq (c : Dev nD) : Gen.V22 m (outsOf m) c (Proc.devRef .tc main_v103)
    = shapeCast _ (res1 m c) shapeCasts_S4096x4096_S2x2048x4096 := by
  show StableHlo.after hostOps2 (Gen.V21 m (outsOf m) c) (Proc.devRef .tc main_v103) = _
  rw [V21_outsOf]
  simp only [StableHlo.after_cons, StableHlo.after_nil]
  rw [StableHlo.reshape_result]
  rw [Function.update_self]
  rfl

def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev noLevels : GSem nD τ sig → Finset Unit := fun _ => ∅
abbrev levelZero : GSem nD τ sig → Unit → ℕ := fun _ _ => 0

abbrev rest (c : Dev nD) : sProp (MM F) :=
  iprop((∃ r, prngReg c r) ∗ ∃ W, owes (c : Thread nD τ) (0 : CellTallies nD τ sig Unit) W)

def exit1 : Contents F := fun c b =>
  (Function.update (Function.update (Gen.V19 m c) (Proc.devRef .tc main_v101) (res0 m c))
    (Proc.devRef .tc main_v102) (res1 m c)) (Proc.devRef .tc b)

theorem exit1_of_ne (c : Dev nD) (b : Ref sig .tc) (hb : b ≠ main_v102) : exit1 m c b = entry1 m c b := by
  unfold exit1 entry1
  exact Function.update_of_ne (StableHlo.devRef_ne_of_ne hb) _ _

theorem exit1_v102 (c : Dev nD) : exit1 m c main_v102 = res1 m c := by
  unfold exit1
  exact Function.update_self _ _ _

theorem hF0 (c : Dev nD) : ∀ w : Fin cfg0.W,
    (dat0 (entry0 m) c).arrAt w cfg0.N = entry1 m c (Pipeline.arrRef spec0 w)
  | ⟨0, _⟩ => ((dat0 (entry0 m) c).arrAt_in 0 rfl cfg0.N).trans (entry1_of_ne m c main_v100 (by decide)).symm
  | ⟨1, _⟩ => ((dat0 (entry0 m) c).arrAt_in 1 rfl cfg0.N).trans (entry1_of_ne m c main_v40 (by decide)).symm
  | ⟨2, _⟩ => ((dat0 (entry0 m) c).arrAt_in 2 rfl cfg0.N).trans (entry1_of_ne m c main_v68 (by decide)).symm
  | ⟨3, _⟩ => (entry1_v101 m c).symm

theorem hrest0 (c : Dev nD) : ∀ b, b ∉ Finset.univ.image (Pipeline.arrRef spec0) → entry1 m c b = entry0 m c b :=
  fun b hb => entry1_of_ne m c b fun e => hb (Finset.mem_image.mpr ⟨3, Finset.mem_univ _, e.symm⟩)

theorem hF1 (c : Dev nD) : ∀ w : Fin cfg1.W,
    (dat1 (entry1 m) c).arrAt w cfg1.N = exit1 m c (Pipeline.arrRef spec1 w)
  | ⟨0, _⟩ => ((dat1 (entry1 m) c).arrAt_in 0 rfl cfg1.N).trans (exit1_of_ne m c main_v101 (by decide)).symm
  | ⟨1, _⟩ => ((dat1 (entry1 m) c).arrAt_in 1 rfl cfg1.N).trans (exit1_of_ne m c main_v99 (by decide)).symm
  | ⟨2, _⟩ => (exit1_v102 m c).symm

theorem hrest1 (c : Dev nD) : ∀ b, b ∉ Finset.univ.image (Pipeline.arrRef spec1) → exit1 m c b = entry1 m c b :=
  fun b hb => exit1_of_ne m c b fun e => hb (Finset.mem_image.mpr ⟨2, Finset.mem_univ _, e.symm⟩)

theorem held_entry0 (c : Dev nD) : (unscopedBufs c (entry0 m c) : sProp (MM F))
    = StableHlo.held (c : Thread nD τ) (Pipeline.ucRefs τ sig) (Gen.V19 m c) :=
  Pipeline.unscopedBufs_held c (Gen.V19 m c)

theorem held_entry1 (c : Dev nD) : (unscopedBufs c (entry1 m c) : sProp (MM F))
    = StableHlo.held (c : Thread nD τ) (Pipeline.ucRefs τ sig) (Gen.V20 m (outsOf m) c) := by
  rw [V20_outsOf]
  exact Pipeline.unscopedBufs_held c (Function.update (Gen.V19 m c) (Proc.devRef .tc main_v101) (res0 m c))

theorem held_exit1 (c : Dev nD) : (unscopedBufs c (exit1 m c) : sProp (MM F))
    = StableHlo.held (c : Thread nD τ) (Pipeline.ucRefs τ sig) (Gen.V21 m (outsOf m) c) := by
  rw [V21_outsOf]
  exact Pipeline.unscopedBufs_held c (Function.update (Function.update (Gen.V19 m c) (Proc.devRef .tc main_v101) (res0 m c))
    (Proc.devRef .tc main_v102) (res1 m c))

set_option backward.isDefEq.respectTransparency.types false in

def reg0 : Pipeline.RegionSeg (pcfgs (F := F)) Gen.adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (Gen.V19 m c) ∗ rest c)
  post c := iprop(StableHlo.held (c : Thread nD τ) (Pipeline.ucRefs τ sig) (Gen.V20 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      (((pdats m) 0 c).share_full fun _ => rfl) (entry0 m c) fun _ => rfl
    rw [held_entry0 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) (((pdats m) 0 c).share_full fun _ => rfl)
      (entry0 m c) (entry1 m c) (((pdats m) 0 c).arrAt · cfg0.N) (hF0 m c) (hrest0 m c)
    rw [held_entry1 m c] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (Gen.V20 m (outsOf m) c) ∗ rest c)
  post c := iprop(StableHlo.held (c : Thread nD τ) (Pipeline.ucRefs τ sig) (Gen.V21 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      (((pdats m) 1 c).share_full fun _ => rfl) (entry1 m c) fun _ => rfl
    rw [held_entry1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) (((pdats m) 1 c).share_full fun _ => rfl)
      (entry1 m c) (exit1 m c) (((pdats m) 1 c).arrAt · cfg1.N) (hF1 m c) (hrest1 m c)
    rw [held_exit1 m c] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v103) = Gen.V22 m (outsOf m) c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.run_cond m emb₁ () Variants.none noLevels levelZero (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (E := fun _ c => rest c)
    (hE0 := by
      refine Pipeline.initEach noLevels levelZero fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Launch

end Cert.Kernel.Hand

end
-- ==== Proof.K.FrameAny.lean ====
import proofs.«412500_j21947282883010_2_alg».proof.Proof.K.Launch

set_option maxRecDepth 16384

noncomputable section

namespace Cert.Kernel.Hand

open Idealize.ShloMosaic Idealize.ShloMosaic.TcCoe
open Idealize.SL Idealize.SL.Sem
open Idealize.ShloMosaic.Pipeline (Dat Cfg Window BodyObligation cellOf)
open Cert.Kernel Cert.Kernel.Gen

variable {F : FTy → Type} [FloatOps F]

theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Hand

end
-- ==== Proof.KI.DatShape.lean ====
import proofs.«412500_j21947282883010_2_alg».proof.Proof.Gen.KernelIdeal.Launch
import proofs.«412500_j21947282883010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev MM (F : FTy → Type) : Type _ := MT nD τ sig Unit (Elt F) ℕ (UR sig nD τ) ℕ

/-- What every buffer of a core holds. -/
abbrev Contents (F : FTy → Type) : Type := (c : Dev nD) → (b : Ref sig .tc) → Buf (Elt F) ((c : Thread nD τ).loc b)

/-- A pipeline's proof data is fixed by what each staging buffer holds after each point (`aft`) and the invariant
    between points (`phi`): the arrays are the entry contents `V`, every share is full, nothing is owed. -/
def mk0 (aft : Contents F → (c : Dev nD) → (w : Fin cfg0.W) → Fin cfg0.N → (cfg0.win w).block.Idx → Elt F (cfg0.win w).elt)
    (phi : Contents F → (c : Dev nD) → Fin (cfg0.N + 1) → sProp (MM F)) (V : Contents F) (c : Dev nD) :
    Dat τ (Elt F) Unit ℕ (UR sig nD τ) ℕ cfg0 c where
  A w := V c (Pipeline.arrRef spec0 w)
  after := aft V c
  Φ := phi V c
  q _ := fullShare
  owed _ := 0

def mk1 (aft : Contents F → (c : Dev nD) → (w : Fin cfg1.W) → Fin cfg1.N → (cfg1.win w).block.Idx → Elt F (cfg1.win w).elt)
    (phi : Contents F → (c : Dev nD) → Fin (cfg1.N + 1) → sProp (MM F)) (V : Contents F) (c : Dev nD) :
    Dat τ (Elt F) Unit ℕ (UR sig nD τ) ℕ cfg1 c where
  A w := V c (Pipeline.arrRef spec1 w)
  after := aft V c
  Φ := phi V c
  q _ := fullShare
  owed _ := 0

/-- What a block holds once the stores `L` (last first) have landed in it, read through the view `v`. -/
abbrev rdb {S : Shape} {φ : EltTy} (v : View sig .tc .vmem S φ) (L : List (View.Piece (Elt F) S φ)) : Vec F S φ :=
  v.read (Elt F) (v.writes (Elt F) v.junk L)

/-- Stores that tile the block overwrite all of it, so what they leave does not depend on what was there. -/
theorem rdb_canon {S : Shape} {φ : EltTy} (v : View sig .tc .vmem S φ) (L : List (View.Piece (Elt F) S φ))
    (h : View.Piece.tiledL L S.size = true) : rdb v L = View.canon L :=
  View.read_writes_eq_canon _ _ _ (View.cover_of_tiledL L S.size h)

theorem mk0_A (aft phi) (V : Contents F) (c : Dev nD) (w : Fin cfg0.W) : (mk0 aft phi V c).A w = V c (Pipeline.arrRef spec0 w) := rfl
theorem mk1_A (aft phi) (V : Contents F) (c : Dev nD) (w : Fin cfg1.W) : (mk1 aft phi V c).A w = V c (Pipeline.arrRef spec1 w) := rfl

end Cert.KernelIdeal.Hand

end
-- ==== Proof.KI.R0Runs.lean ====
import proofs.«412500_j21947282883010_2_alg».proof.Proof.KI.DatShape
import proofs.«412500_j21947282883010_2_alg».proof.Proof.Gen.KernelIdeal.Skeleton
import proofs.«412500_j21947282883010_2_alg».proof.Proof.Gen.KernelIdeal.Points
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def iblk0 (V : Contents F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of (V : Contents F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of (V : Contents F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of (V : Contents F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → ¬cond0_1 (grid0.coords t) → cfg0.idle 3 (grid0.coords t) = true := by decide +kernel

theorem noFlush0_3_A : ∀ t : Fin cfg0.N, cond0_0 (grid0.coords t) → ¬cond0_1 (grid0.coords t) → (cfg0.win 3).flush t = false := by decide +kernel

theorem idleAt0_3_B : ∀ t : Fin cfg0.N, ¬cond0_0 (grid0.coords t) → ¬cond0_1 (grid0.coords t) → cfg0.idle 3 (grid0.coords t) = true := by decide +kernel

theorem noFlush0_3_B : ∀ t : Fin cfg0.N, ¬cond0_0 (grid0.coords t) → ¬cond0_1 (grid0.coords t) → (cfg0.win 3).flush t = false := by decide +kernel

theorem liveAt0_3_C : ∀ t : Fin cfg0.N, ¬cond0_0 (grid0.coords t) → cond0_1 (grid0.coords t) → cfg0.idle 3 (grid0.coords t) = false := by decide +kernel

abbrev VO0_3 : View sig .tc .vmem S1024x1024 .bf16 := (Memref.whole cc0_stg3_0 : Memref sig .tc .vmem S1024x1024 .bf16).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)

abbrev scM0_0 : Memref sig .tc .vmem S1024x1024 .f32 := Memref.whole cc0_scratch0
abbrev scM0_1 : Memref sig .tc .vmem S1024x1024 .f32 := Memref.whole cc0_scratch1

abbrev VS0_0 : View sig .tc .vmem S1024x1024 .f32 := scM0_0.view
abbrev VS0_1 : View sig .tc .vmem S1024x1024 .f32 := scM0_1.view

def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA restScoped0; rw [scopedRest0_eq]; simp only [scM0_0, scM0_1, owns_whole]; try rfl

end Cert.KernelIdeal.Hand

end
-- ==== Proof.KI.R0RunA.lean ====
import proofs.«412500_j21947282883010_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16)

set_option maxHeartbeats 1000000 in
/-- The body where k = 0: both accumulators are overwritten before they are read, so they may hold anything; the
    output block is handed back as found. The stores each buffer receives are the witness, last first. -/
noncomputable def kernelRun0_A (hc0 : cond0_0 i) (hc1 : ¬cond0_1 i) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0RunB.lean ====
import proofs.«412500_j21947282883010_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16) (xs0 xs1 : Vec F S1024x1024 .f32)

set_option maxHeartbeats 1000000 in
/-- The body where 0 < k < 3: each accumulator is read at `xs0`, `xs1` and stored with its product added; the output
    block is handed back as found. -/
noncomputable def kernelRun0_B (hc0 : ¬cond0_0 i) (hc1 : ¬cond0_1 i) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0RunC.lean ====
import proofs.«412500_j21947282883010_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16) (xs0 xs1 : Vec F S1024x1024 .f32)

set_option maxHeartbeats 1000000 in
/-- The body where k = 3: as for 0 < k < 3, and then the output block is stored over whatever it held. -/
noncomputable def kernelRun0_C (hc0 : ¬cond0_0 i) (hc1 : cond0_1 i) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.R0Body.lean ====
import proofs.«412500_j21947282883010_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Contents F) (c : Dev nD)

/-- The body's run at point `t`, by the value of k = t mod 4, on the point's own staging buffers and blocks; `xs` is
    what the point before left in the two accumulators. -/
def runA (t : Fin cfg0.N) (h0 : t.val % 4 = 0) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) ((hcond0_0 t).mpr h0) (fun h => by have := (hcond0_1 t).mp h; omega)
def runB (t : Fin cfg0.N) (h0 : ¬t.val % 4 = 0) (h1 : ¬t.val % 4 = 3) (xs : Vec F S1024x1024 .f32 × Vec F S1024x1024 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) xs.1 xs.2 (fun h => h0 ((hcond0_0 t).mp h)) (fun h => h1 ((hcond0_1 t).mp h))
def runC (t : Fin cfg0.N) (h0 : ¬t.val % 4 = 0) (h1 : t.val % 4 = 3) (xs : Vec F S1024x1024 .f32 × Vec F S1024x1024 .f32) :=
  kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) xs.1 xs.2 (fun h => h0 ((hcond0_0 t).mp h)) ((hcond0_1 t).mpr h1)

/-- What point `t` leaves in the output block's buffer, the gate accumulator and the up accumulator. -/
def step0 (t : Fin cfg0.N) (xs : Vec F S1024x1024 .f32 × Vec F S1024x1024 .f32) : Vec F S1024x1024 .bf16 × Vec F S1024x1024 .f32 × Vec F S1024x1024 .f32 :=
  if h0 : t.val % 4 = 0 then
    (rdb VO0_3 (runA V c t h0).1, rdb VS0_0 (runA V c t h0).2.1, rdb VS0_1 (runA V c t h0).2.2.1)
  else if h1 : t.val % 4 = 3 then
    (rdb VO0_3 (runC V c t h0 h1 xs).1, rdb VS0_0 (runC V c t h0 h1 xs).2.1, rdb VS0_1 (runC V c t h0 h1 xs).2.2.1)
  else
    (rdb VO0_3 (runB V c t h0 h1 xs).1, rdb VS0_0 (runB V c t h0 h1 xs).2.1, rdb VS0_1 (runB V c t h0 h1 xs).2.2.1)

/-- The three buffers after each point, the accumulators carried from one point to the next. -/
def outsAt0 : (n : ℕ) → n < cfg0.N → Vec F S1024x1024 .bf16 × Vec F S1024x1024 .f32 × Vec F S1024x1024 .f32
  | 0, hn => step0 V c ⟨0, hn⟩ (rdb VS0_0 [], rdb VS0_1 [])
  | n + 1, hn => step0 V c ⟨n + 1, hn⟩ (outsAt0 n (Nat.lt_of_succ_lt hn)).2

theorem pred_lt0 (t : Fin cfg0.N) : t.val - 1 < cfg0.N := Nat.lt_of_le_of_lt (Nat.sub_le _ _) t.isLt

theorem outsAt0_A (t : Fin cfg0.N) (h0 : t.val % 4 = 0) :
    outsAt0 V c t.val t.isLt = (rdb VO0_3 (runA V c t h0).1, rdb VS0_0 (runA V c t h0).2.1, rdb VS0_1 (runA V c t h0).2.2.1) := by
  obtain ⟨n, hn⟩ := t
  cases n <;> (show step0 V c _ _ = _; unfold step0; exact dif_pos h0)

theorem outsAt0_B (t : Fin cfg0.N) (h0 : ¬t.val % 4 = 0) (h1 : ¬t.val % 4 = 3) :
    outsAt0 V c t.val t.isLt = (rdb VO0_3 (runB V c t h0 h1 (outsAt0 V c (t.val - 1) (pred_lt0 t)).2).1, rdb VS0_0 (runB V c t h0 h1 (outsAt0 V c (t.val - 1) (pred_lt0 t)).2).2.1, rdb VS0_1 (runB V c t h0 h1 (outsAt0 V c (t.val - 1) (pred_lt0 t)).2).2.2.1) := by
  obtain ⟨n, hn⟩ := t
  cases n with
  | zero => exact absurd rfl h0
  | succ n => show step0 V c _ _ = _; unfold step0; exact (dif_neg h0).trans ((dif_neg h1).trans rfl)

theorem outsAt0_C (t : Fin cfg0.N) (h0 : ¬t.val % 4 = 0) (h1 : t.val % 4 = 3) :
    outsAt0 V c t.val t.isLt = (rdb VO0_3 (runC V c t h0 h1 (outsAt0 V c (t.val - 1) (pred_lt0 t)).2).1, rdb VS0_0 (runC V c t h0 h1 (outsAt0 V c (t.val - 1) (pred_lt0 t)).2).2.1, rdb VS0_1 (runC V c t h0 h1 (outsAt0 V c (t.val - 1) (pred_lt0 t)).2).2.2.1) := by
  obtain ⟨n, hn⟩ := t
  cases n with
  | zero => exact absurd rfl h0
  | succ n => show step0 V c _ _ = _; unfold step0; exact (dif_neg h0).trans ((dif_pos h1).trans rfl)

/-- The invariant before position `n`: the launch's own before the first point; afterwards the same with each
    accumulator at what the point before left in it. -/
def PhiS0 : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restScoped0 (F := F) c) ∗ (∃ r, prngReg c r))

theorem PhiS_pos (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ restScoped0 (F := F) c) ∗ (∃ r, prngReg c r)) := by
  cases n with
  | zero => exact absurd rfl hz
  | succ n => rfl

/-- At every position the invariant yields both accumulators at some contents. -/
theorem PhiS_any (n : ℕ) (h : n ≤ cfg0.N) :
    PhiS0 V c n h ⊢ iprop(iprop((∃ d, owns (c : Thread nD τ) scM0_0 fullShare d) ∗ (∃ d, owns (c : Thread nD τ) scM0_1 fullShare d) ∗ restScoped0 (F := F) c) ∗ (∃ r, prngReg c r)) := by
  cases n with
  | zero => show (Pipeline.ΦA spec0 c : sProp 𝕄) ⊢ _; rw [PhiA0_eq]; try exact .rfl
  | succ n =>
    show iprop(iprop(owns (c : Thread nD τ) scM0_0 fullShare _ ∗ owns (c : Thread nD τ) scM0_1 fullShare _ ∗ restScoped0 (F := F) c) ∗ (∃ r, prngReg c r)) ⊢ _
    iintro ⟨⟨HS0, HS1, HR⟩, Hg⟩
    iframe HR Hg
    isplitl [HS0] <;> (iexists _; iassumption)

/-- After the body at point `t` an input's buffer still holds its block; the output's holds `outsAt0`'s first component. -/
def aft0 : Contents F → (c : Dev nD) → (w : Fin cfg0.W) → Fin cfg0.N → (cfg0.win w).block.Idx → Elt F (cfg0.win w).elt :=
  fun V c w t => match w with
    | ⟨0, _⟩ => iblk0 V c 0 t
    | ⟨1, _⟩ => iblk0 V c 1 t
    | ⟨2, _⟩ => iblk0 V c 2 t
    | ⟨3, _⟩ => (outsAt0 V c t.val t.isLt).1

def phi0 : Contents F → (c : Dev nD) → Fin (cfg0.N + 1) → sProp (MM F) :=
  fun V c t => PhiS0 V c t.val (Nat.le_of_lt_succ t.isLt)

/-- The gate/up pipeline's proof data on core `c`, at the region-entry contents `V`. -/
abbrev dat0 := mk0 aft0 phi0 V c

theorem A_eq0 (w : Fin cfg0.W) : (dat0 V c).A w = V c (Pipeline.arrRef spec0 w) := mk0_A aft0 phi0 V c w

theorem PhiS_castSucc0 (t : Fin cfg0.N) : (dat0 V c).Φ t.castSucc = PhiS0 V c t.val (Nat.le_of_lt t.isLt) := by
  dsimp only [dat0, mk0, phi0]; simp only [Fin.coe_castSucc]

theorem after0_0 (t : Fin cfg0.N) : (dat0 V c).after 0 t = iblk0 V c 0 t := by dsimp only [dat0, mk0, aft0]
theorem after0_1 (t : Fin cfg0.N) : (dat0 V c).after 1 t = iblk0 V c 1 t := by dsimp only [dat0, mk0, aft0]
theorem after0_2 (t : Fin cfg0.N) : (dat0 V c).after 2 t = iblk0 V c 2 t := by dsimp only [dat0, mk0, aft0]
theorem after0_3 (t : Fin cfg0.N) : (dat0 V c).after 3 t = (outsAt0 V c t.val t.isLt).1 := by dsimp only [dat0, mk0, aft0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

/-- What the body is called with at point `t`, the windows one by one, -/
def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: by k = t mod 4 one of the three runs, fed the accumulators as the invariant names them (at
    anything where k = 0) and giving them back at this point's contents, since whole-block stores cover them; the
    output block goes back untouched where k < 3. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl,
    show PhiS0 V c (t.val + 1) t.isLt = iprop(iprop(owns (c : Thread nD τ) scM0_0 fullShare ((outsAt0 V c t.val t.isLt).2.1) ∗ owns (c : Thread nD τ) scM0_1 fullShare ((outsAt0 V c t.val t.isLt).2.2) ∗ restScoped0 (F := F) c) ∗ (∃ r, prngReg c r)) from rfl,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2,
    PhiS_castSucc0 V c t]
  have hN : t.val < 176 := lt_of_lt_of_eq t.isLt (show cfg0.N = 176 from N_0)
  by_cases h0 : t.val % 4 = 0
  · rw [Dat.leavesExact_idle (dat0 V c) 3 t (idleAt0_3_A t ((hcond0_0 t).mpr h0) (fun h => by have := (hcond0_1 t).mp h; omega)) (noFlush0_3_A t ((hcond0_0 t).mpr h0) (fun h => by have := (hcond0_1 t).mp h; omega)),
      outsAt0_A V c t h0]
    dsimp only
    iintro ⟨HΦ, Ho, ⟨%d0, H0⟩, ⟨%d1, H1⟩, ⟨%d2, H2⟩, ⟨%d3, H3⟩⟩
    ihave HΦ := (PhiS_any V c t.val (Nat.le_of_lt t.isLt)) $$ HΦ
    icases HΦ with ⟨⟨HS0, HS1, HR⟩, Hg⟩
    iapply ((runA V c t h0).2.2.2 _ Set.univ _)
    iframe H0 H1 H2 HS0 HS1
    isplitl [H3]; · iexact H3
    iintro ⟨H0, H1, H2, H3, ⟨%e0, HS0⟩, ⟨%e1, HS1⟩⟩
    iframe HR Hg Ho H0 H1 H2
    isplitl [HS0 HS1]
    · isplitl [HS0]
      · ihave H' := (Ring.owns_of_writes_tiledL VS0_0 S1024x1024.size) $$ HS0; iapply H'; ipureintro; sl_kernel_rfl
      ihave H' := (Ring.owns_of_writes_tiledL VS0_1 S1024x1024.size) $$ HS1; iapply H'; ipureintro; sl_kernel_rfl
    iexists _; iexact H3
  · have hz : t.val ≠ 0 := by omega
    rw [PhiS_pos V c _ _ hz]
    by_cases h1 : t.val % 4 = 3
    · rw [show (dat0 V c).leavesExact 3 t = owns (c : Thread nD τ) (ms0_3 t) fullShare ((dat0 V c).after 3 t) from by
          unfold Dat.leavesExact; rw [liveAt0_3_C t (fun h => h0 ((hcond0_0 t).mp h)) ((hcond0_1 t).mpr h1)], after0_3,
        outsAt0_C V c t h0 h1]
      dsimp only
      iintro ⟨⟨⟨HS0, HS1, HR⟩, Hg⟩, Ho, ⟨%d0, H0⟩, ⟨%d1, H1⟩, ⟨%d2, H2⟩, ⟨%d3, H3⟩⟩
      iapply ((runC V c t h0 h1 _).2.2.2 Set.univ _)
      iframe H0 H1 H2 HS0 HS1
      isplitl [H3]; · iexists _; iexact H3
      iintro ⟨H0, H1, H2, ⟨%e3, H3⟩, ⟨%e0, HS0⟩, ⟨%e1, HS1⟩⟩
      iframe HR Hg Ho H0 H1 H2
      isplitl [HS0 HS1]
      · isplitl [HS0]
        · ihave H' := (Ring.owns_of_writes_tiledL VS0_0 S1024x1024.size) $$ HS0; iapply H'; ipureintro; sl_kernel_rfl
        ihave H' := (Ring.owns_of_writes_tiledL VS0_1 S1024x1024.size) $$ HS1; iapply H'; ipureintro; sl_kernel_rfl
      ihave H' := (Ring.owns_of_writes_tiledL VO0_3 S1024x1024.size) $$ H3; iapply H'; ipureintro; sl_kernel_rfl
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h))),
        outsAt0_B V c t h0 h1]
      dsimp only
      iintro ⟨⟨⟨HS0, HS1, HR⟩, Hg⟩, Ho, ⟨%d0, H0⟩, ⟨%d1, H1⟩, ⟨%d2, H2⟩, ⟨%d3, H3⟩⟩
      iapply ((runB V c t h0 h1 _).2.2.2 _ Set.univ _)
      iframe H0 H1 H2 HS0 HS1
      isplitl [H3]; · iexact H3
      iintro ⟨H0, H1, H2, H3, ⟨%e0, HS0⟩, ⟨%e1, HS1⟩⟩
      iframe HR Hg Ho H0 H1 H2
      isplitl [HS0 HS1]
      · isplitl [HS0]
        · ihave H' := (Ring.owns_of_writes_tiledL VS0_0 S1024x1024.size) $$ HS0; iapply H'; ipureintro; sl_kernel_rfl
        ihave H' := (Ring.owns_of_writes_tiledL VS0_1 S1024x1024.size) $$ HS1; iapply H'; ipureintro; sl_kernel_rfl
      iexists _; iexact H3

theorem body_obligation0 : BodyObligation (dat0 (F := F) V c) (defs₀ (F := F)) Variants.none () Set.univ := fun t => by
  rw [bigSep_W0, bigSep_W0]
  exact sound_body0 V c t

theorem hin0 : Pipeline.ΦA spec0 c ⊢ phi0 V c 0 := .rfl

theorem hout0 : phi0 V c (Fin.last cfg0.N) ⊢ Pipeline.ΦA spec0 c := by
  rw [PhiA0_eq]; exact PhiS_any V c _ _

end Cert.KernelIdeal.Hand

end
-- ==== Proof.KI.R1Runs.lean ====
import proofs.«412500_j21947282883010_2_alg».proof.Proof.KI.DatShape
import proofs.«412500_j21947282883010_2_alg».proof.Proof.Gen.KernelIdeal.Skeleton
import proofs.«412500_j21947282883010_2_alg».proof.Proof.Gen.KernelIdeal.Points
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

def iblk1 (V : Contents F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of (V : Contents F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of (V : Contents F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 11 = 0 :=
  (by decide +kernel : ∀ t : Fin grid1.N, cond1_0 (grid1.coords t) ↔ t.val % 11 = 0)

abbrev cond1_1 (i : grid1.Coords) : Prop := k1_cond2 i = 1#1

theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel

theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1024x1024 .f32 := (Memref.whole cc1_stg2_0 : Memref sig .tc .vmem S1024x1024 .f32).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

abbrev scM1_0 : Memref sig .tc .vmem S1024x1024 .f32 := Memref.whole cc1_scratch0

abbrev VS1_0 : View sig .tc .vmem S1024x1024 .f32 := scM1_0.view

def withOthers1 (c : Dev nD) (P : sProp (MM F)) : sProp (MM F) :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ P)

theorem withOthers1_mono (c : Dev nD) {P Q : sProp (MM F)} (h : P ⊢ Q) : withOthers1 c P ⊢ withOthers1 c Q := by
  unfold withOthers1
  iintro ⟨R0, R1, R2, R3, R4, R5, R6, R7, R8, R9, HP⟩
  iframe R0 R1 R2 R3 R4 R5 R6 R7 R8 R9
  iapply h; iexact HP

theorem PhiA1_eq (c : Dev nD) :
    (Pipeline.ΦA spec1 c : sProp (MM F))
      = iprop(withOthers1 c (iprop(∃ d, owns (c : Thread nD τ) scM1_0 fullShare d)) ∗ (∃ r, prngReg c r)) := by
  unfold Pipeline.ΦA withOthers1; rw [scopedRest1_eq]; simp only [scM1_0, owns_whole]; try rfl

end Cert.KernelIdeal.Hand

end
-- ==== Proof.KI.R1RunA.lean ====
import proofs.«412500_j21947282883010_2_alg».proof.Proof.KI.R1Runs

-- membership in a rectangle of 1024 x 1024 elements: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16)

set_option maxHeartbeats 1000000 in
/-- The body at the first reduction step: the accumulator is overwritten before it is read, so it may hold anything;
    the output block is handed back as found. The stores each buffer receives are the witness, last first. -/
noncomputable def kernelRun1_A (hc0 : cond1_0 i) (hc1 : ¬cond1_1 i) :
    Σ' (L2 : List (View.Piece (Elt F) S1024x1024 .f32)), { LS0 : List (View.Piece (Elt F) S1024x1024 .f32) //
      ∀ (xi2 : Vec F S1024x1024 .f32) (E : Set ℕ) (K : PUnit → sProp (MM F)),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunB.lean ====
import proofs.«412500_j21947282883010_2_alg».proof.Proof.KI.R1RunA

-- membership in a rectangle of 1024 x 1024 elements: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16) (xs0 : Vec F S1024x1024 .f32)

set_option maxHeartbeats 1000000 in
/-- The body at a middle reduction step: the accumulator is read at `xs0` and stored with the product added; the
    output block is handed back as found. -/
noncomputable def kernelRun1_B (hc0 : ¬cond1_0 i) (hc1 : ¬cond1_1 i) :
    Σ' (L2 : List (View.Piece (Elt F) S1024x1024 .f32)), { LS0 : List (View.Piece (Elt F) S1024x1024 .f32) //
      ∀ (xi2 : Vec F S1024x1024 .f32) (E : Set ℕ) (K : PUnit → sProp (MM F)),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunC.lean ====
import proofs.«412500_j21947282883010_2_alg».proof.Proof.KI.R1RunB

-- membership in a rectangle of 1024 x 1024 elements: the elaborator's structural look recurses once per
-- coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16) (xs0 : Vec F S1024x1024 .f32)

set_option maxHeartbeats 1000000 in
/-- The body at the last reduction step: as at a middle one, and then the output block is stored over whatever it held. -/
noncomputable def kernelRun1_C (hc0 : ¬cond1_0 i) (hc1 : cond1_1 i) :
    Σ' (L2 : List (View.Piece (Elt F) S1024x1024 .f32)), { LS0 : List (View.Piece (Elt F) S1024x1024 .f32) //
      ∀ (E : Set ℕ) (K : PUnit → sProp (MM F)),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R1Body.lean ====
import proofs.«412500_j21947282883010_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : Contents F) (c : Dev nD)

/-- The body's run at point `t`, by the reduction step k = t mod 11, on the point's own staging buffers and blocks;
    `xs` is what the point before left in the accumulator. -/
def run1A (t : Fin cfg1.N) (h0 : t.val % 11 = 0) :=
  kernelRun1_A c (grid1.coords t) (ms1_0 t) (hs1_0 t) (ms1_1 t) (hs1_1 t) (ms1_2 t) (hs1_2 t) scM1_0 (Memref.isWhole_whole _) (iblk1 V c 0 t) (iblk1 V c 1 t) ((hcond1_0 t).mpr h0) (fun h => by have := (hcond1_1 t).mp h; omega)
def run1B (t : Fin cfg1.N) (h0 : ¬t.val % 11 = 0) (h1 : ¬t.val % 11 = 10) (xs : Vec F S1024x1024 .f32) :=
  kernelRun1_B c (grid1.coords t) (ms1_0 t) (hs1_0 t) (ms1_1 t) (hs1_1 t) (ms1_2 t) (hs1_2 t) scM1_0 (Memref.isWhole_whole _) (iblk1 V c 0 t) (iblk1 V c 1 t) xs (fun h => h0 ((hcond1_0 t).mp h)) (fun h => h1 ((hcond1_1 t).mp h))
def run1C (t : Fin cfg1.N) (h0 : ¬t.val % 11 = 0) (h1 : t.val % 11 = 10) (xs : Vec F S1024x1024 .f32) :=
  kernelRun1_C c (grid1.coords t) (ms1_0 t) (hs1_0 t) (ms1_1 t) (hs1_1 t) (ms1_2 t) (hs1_2 t) scM1_0 (Memref.isWhole_whole _) (iblk1 V c 0 t) (iblk1 V c 1 t) xs (fun h => h0 ((hcond1_0 t).mp h)) ((hcond1_1 t).mpr h1)

/-- What point `t` leaves in the output block's buffer and in the accumulator. -/
def step1 (t : Fin cfg1.N) (xs : Vec F S1024x1024 .f32) : Vec F S1024x1024 .f32 × Vec F S1024x1024 .f32 :=
  if h0 : t.val % 11 = 0 then (rdb VO1_2 (run1A V c t h0).1, rdb VS1_0 (run1A V c t h0).2.1)
  else if h1 : t.val % 11 = 10 then (rdb VO1_2 (run1C V c t h0 h1 xs).1, rdb VS1_0 (run1C V c t h0 h1 xs).2.1)
  else (rdb VO1_2 (run1B V c t h0 h1 xs).1, rdb VS1_0 (run1B V c t h0 h1 xs).2.1)

/-- The two buffers after each point, the accumulator carried from one point to the next. -/
def outsAt1 : (n : ℕ) → n < cfg1.N → Vec F S1024x1024 .f32 × Vec F S1024x1024 .f32
  | 0, hn => step1 V c ⟨0, hn⟩ (rdb VS1_0 [])
  | n + 1, hn => step1 V c ⟨n + 1, hn⟩ (outsAt1 n (Nat.lt_of_succ_lt hn)).2

theorem pred_lt1 (t : Fin cfg1.N) : t.val - 1 < cfg1.N := Nat.lt_of_le_of_lt (Nat.sub_le _ _) t.isLt

theorem outsAt1_A (t : Fin cfg1.N) (h0 : t.val % 11 = 0) :
    outsAt1 V c t.val t.isLt = (rdb VO1_2 (run1A V c t h0).1, rdb VS1_0 (run1A V c t h0).2.1) := by
  obtain ⟨n, hn⟩ := t
  cases n <;> (show step1 V c _ _ = _; unfold step1; exact dif_pos h0)

theorem outsAt1_B (t : Fin cfg1.N) (h0 : ¬t.val % 11 = 0) (h1 : ¬t.val % 11 = 10) :
    outsAt1 V c t.val t.isLt = (rdb VO1_2 (run1B V c t h0 h1 (outsAt1 V c (t.val - 1) (pred_lt1 t)).2).1, rdb VS1_0 (run1B V c t h0 h1 (outsAt1 V c (t.val - 1) (pred_lt1 t)).2).2.1) := by
  obtain ⟨n, hn⟩ := t
  cases n with
  | zero => exact absurd rfl h0
  | succ n => show step1 V c _ _ = _; unfold step1; exact (dif_neg h0).trans ((dif_neg h1).trans rfl)

theorem outsAt1_C (t : Fin cfg1.N) (h0 : ¬t.val % 11 = 0) (h1 : t.val % 11 = 10) :
    outsAt1 V c t.val t.isLt = (rdb VO1_2 (run1C V c t h0 h1 (outsAt1 V c (t.val - 1) (pred_lt1 t)).2).1, rdb VS1_0 (run1C V c t h0 h1 (outsAt1 V c (t.val - 1) (pred_lt1 t)).2).2.1) := by
  obtain ⟨n, hn⟩ := t
  cases n with
  | zero => exact absurd rfl h0
  | succ n => show step1 V c _ _ = _; unfold step1; exact (dif_neg h0).trans ((dif_pos h1).trans rfl)

/-- The invariant before position `n`: the class's own before the first point; afterwards the same with the accumulator
    at what the point before left in it. -/
def PhiS1 : (n : ℕ) → n ≤ cfg1.N → sProp (MM F)
  | 0, _ => Pipeline.ΦA spec1 c
  | n + 1, hn => iprop(withOthers1 c (owns (c : Thread nD τ) scM1_0 fullShare ((outsAt1 V c n hn).2)) ∗ (∃ r, prngReg c r))

theorem PhiS1_pos (n : ℕ) (h : n ≤ cfg1.N) (hz : n ≠ 0) :
    PhiS1 V c n h = iprop(withOthers1 c (owns (c : Thread nD τ) scM1_0 fullShare ((outsAt1 V c (n - 1) (by omega)).2)) ∗ (∃ r, prngReg c r)) := by
  cases n with
  | zero => exact absurd rfl hz
  | succ n => rfl

/-- At every position the invariant yields the accumulator at some contents. -/
theorem PhiS1_any (n : ℕ) (h : n ≤ cfg1.N) :
    PhiS1 V c n h ⊢ iprop(withOthers1 c (iprop(∃ d, owns (c : Thread nD τ) scM1_0 fullShare d)) ∗ (∃ r, prngReg c r)) := by
  cases n with
  | zero => show (Pipeline.ΦA spec1 c : sProp (MM F)) ⊢ _; rw [PhiA1_eq]; try exact .rfl
  | succ n =>
    show iprop(withOthers1 c (owns (c : Thread nD τ) scM1_0 fullShare _) ∗ (∃ r, prngReg c r)) ⊢ _
    have hS : ∀ X, (owns (c : Thread nD τ) scM1_0 fullShare X : sProp (MM F)) ⊢ iprop(∃ d, owns (c : Thread nD τ) scM1_0 fullShare d) := fun X => by
      iintro H; iexists _; iexact H
    iintro ⟨HS0, Hg⟩
    isplitl [HS0]
    · iapply (withOthers1_mono c (hS _)); iexact HS0
    iexact Hg

/-- After the body at point `t` an input's buffer still holds its block; the output's holds `outsAt1`'s first component. -/
def aft1 : Contents F → (c : Dev nD) → (w : Fin cfg1.W) → Fin cfg1.N → (cfg1.win w).block.Idx → Elt F (cfg1.win w).elt :=
  fun V c w t => match w with
    | ⟨0, _⟩ => iblk1 V c 0 t
    | ⟨1, _⟩ => iblk1 V c 1 t
    | ⟨2, _⟩ => (outsAt1 V c t.val t.isLt).1

def phi1 : Contents F → (c : Dev nD) → Fin (cfg1.N + 1) → sProp (MM F) := fun V c t => PhiS1 V c t.val (Nat.le_of_lt_succ t.isLt)

/-- The down projection's proof data on core `c`, at the region-entry contents `V`. -/
abbrev dat1 := mk1 aft1 phi1 V c

theorem A_eq1 (w : Fin cfg1.W) : (dat1 V c).A w = V c (Pipeline.arrRef spec1 w) := mk1_A _ _ V c w

theorem PhiS1_castSucc (t : Fin cfg1.N) : (dat1 V c).Φ t.castSucc = PhiS1 V c t.val (Nat.le_of_lt t.isLt) := by
  dsimp only [dat1, mk1, phi1]; simp only [Fin.coe_castSucc]

theorem after1_0 (t : Fin cfg1.N) : (dat1 V c).after 0 t = iblk1 V c 0 t := by dsimp only [dat1, mk1, aft1]
theorem after1_1 (t : Fin cfg1.N) : (dat1 V c).after 1 t = iblk1 V c 1 t := by dsimp only [dat1, mk1, aft1]
theorem after1_2 (t : Fin cfg1.N) : (dat1 V c).after 2 t = (outsAt1 V c t.val t.isLt).1 := by dsimp only [dat1, mk1, aft1]

theorem before1_0 (t : Fin cfg1.N) (d) : (dat1 V c).before 0 t d = iblk1 V c 0 t :=
  before1_0_of V (dat1 V c) (A_eq1 V c 0) (after1_0 V c) t d
theorem before1_1 (t : Fin cfg1.N) (d) : (dat1 V c).before 1 t d = iblk1 V c 1 t :=
  before1_1_of V (dat1 V c) (A_eq1 V c 1) (after1_1 V c) t d

/-- What the body is called with at point `t`, the windows one by one, -/
def bodyPre1 (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (t : Fin cfg1.N) : sProp (MM F) :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: by k = t mod 11 one of the three runs, fed the accumulator as the invariant names it (at
    anything where k = 0) and giving it back at this point's contents, since a whole-block store covers it; the other
    pipeline's buffers pass through; the output block goes back untouched where k < 10. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl,
    show PhiS1 V c (t.val + 1) t.isLt = iprop(withOthers1 c (owns (c : Thread nD τ) scM1_0 fullShare ((outsAt1 V c t.val t.isLt).2)) ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    PhiS1_castSucc V c t]
  have hN : t.val < 176 := lt_of_lt_of_eq t.isLt (show cfg1.N = 176 from N_1)
  by_cases h0 : t.val % 11 = 0
  · rw [Dat.leavesExact_idle (dat1 V c) 2 t (idleAt1_2_A t ((hcond1_0 t).mpr h0) (fun h => by have := (hcond1_1 t).mp h; omega)) (noFlush1_2_A t ((hcond1_0 t).mpr h0) (fun h => by have := (hcond1_1 t).mp h; omega)),
      outsAt1_A V c t h0]
    dsimp only
    iintro ⟨HΦ, Ho, ⟨%d0, H0⟩, ⟨%d1, H1⟩, ⟨%d2, H2⟩⟩
    ihave HΦ := (PhiS1_any V c t.val (Nat.le_of_lt t.isLt)) $$ HΦ
    unfold withOthers1
    icases HΦ with ⟨⟨R0, R1, R2, R3, R4, R5, R6, R7, R8, R9, HS0⟩, Hg⟩
    iapply ((run1A V c t h0).2.2 _ Set.univ _)
    iframe H0 H1 HS0
    isplitl [H2]; · iexact H2
    iintro ⟨H0, H1, H2, ⟨%e0, HS0⟩⟩
    iframe R0 R1 R2 R3 R4 R5 R6 R7 R8 R9 Hg Ho H0 H1
    isplitl [HS0]
    · ihave H' := (Ring.owns_of_writes_tiledL VS1_0 S1024x1024.size) $$ HS0; iapply H'; ipureintro; sl_kernel_rfl
    iexists _; iexact H2
  · have hz : t.val ≠ 0 := by omega
    rw [PhiS1_pos V c _ _ hz]
    unfold withOthers1
    by_cases h1 : t.val % 11 = 10
    · rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2,
        outsAt1_C V c t h0 h1]
      dsimp only
      iintro ⟨⟨⟨R0, R1, R2, R3, R4, R5, R6, R7, R8, R9, HS0⟩, Hg⟩, Ho, ⟨%d0, H0⟩, ⟨%d1, H1⟩, ⟨%d2, H2⟩⟩
      iapply ((run1C V c t h0 h1 _).2.2 Set.univ _)
      iframe H0 H1 HS0
      isplitl [H2]; · iexists _; iexact H2
      iintro ⟨H0, H1, ⟨%e2, H2⟩, ⟨%e0, HS0⟩⟩
      iframe R0 R1 R2 R3 R4 R5 R6 R7 R8 R9 Hg Ho H0 H1
      isplitl [HS0]
      · ihave H' := (Ring.owns_of_writes_tiledL VS1_0 S1024x1024.size) $$ HS0; iapply H'; ipureintro; sl_kernel_rfl
      ihave H' := (Ring.owns_of_writes_tiledL VO1_2 S1024x1024.size) $$ H2; iapply H'; ipureintro; sl_kernel_rfl
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h))),
        outsAt1_B V c t h0 h1]
      dsimp only
      iintro ⟨⟨⟨R0, R1, R2, R3, R4, R5, R6, R7, R8, R9, HS0⟩, Hg⟩, Ho, ⟨%d0, H0⟩, ⟨%d1, H1⟩, ⟨%d2, H2⟩⟩
      iapply ((run1B V c t h0 h1 _).2.2 _ Set.univ _)
      iframe H0 H1 HS0
      isplitl [H2]; · iexact H2
      iintro ⟨H0, H1, H2, ⟨%e0, HS0⟩⟩
      iframe R0 R1 R2 R3 R4 R5 R6 R7 R8 R9 Hg Ho H0 H1
      isplitl [HS0]
      · ihave H' := (Ring.owns_of_writes_tiledL VS1_0 S1024x1024.size) $$ HS0; iapply H'; ipureintro; sl_kernel_rfl
      iexists _; iexact H2

theorem body_obligation1 : BodyObligation (dat1 (F := F) V c) (defs₀ (F := F)) Variants.none () Set.univ := fun t => by
  rw [bigSep_W1, bigSep_W1]
  exact sound_body1 V c t

theorem hin1 : Pipeline.ΦA spec1 c ⊢ phi1 V c 0 := .rfl

theorem hout1 : phi1 V c (Fin.last cfg1.N) ⊢ Pipeline.ΦA spec1 c := by
  rw [PhiA1_eq]; exact PhiS1_any V c _ _

end Cert.KernelIdeal.Hand

end
-- ==== Proof.KI.Launch.lean ====
import proofs.«412500_j21947282883010_2_alg».proof.Proof.KI.RunCond
import proofs.«412500_j21947282883010_2_alg».proof.Proof.KI.R0Body
import proofs.«412500_j21947282883010_2_alg».proof.Proof.KI.R1Body

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Launch

attribute [local irreducible] aft0 phi0 aft1 phi1

variable (m : (ℓ : Loc nD τ sig) → Buf (Elt F) ℓ)

def entry0 : Contents F := fun c b => Gen.V19 m c (Proc.devRef .tc b)

def res0 (c : Dev nD) : Buf (Elt F) ((c : Thread nD τ).loc main_v101) :=
  (dat0 (entry0 m) c).arrAt 3 cfg0.N

def entry1 : Contents F := fun c b =>
  (Function.update (Gen.V19 m c) (Proc.devRef .tc main_v101) (res0 m c)) (Proc.devRef .tc b)

def res1 (c : Dev nD) : Buf (Elt F) ((c : Thread nD τ).loc main_v102) :=
  (dat1 (entry1 m) c).arrAt 2 cfg1.N

theorem entry1_of_ne (c : Dev nD) (b : Ref sig .tc) (hb : b ≠ main_v101) : entry1 m c b = entry0 m c b := by
  unfold entry1 entry0
  exact Function.update_of_ne (StableHlo.devRef_ne_of_ne hb) _ _

theorem entry1_v101 (c : Dev nD) : entry1 m c main_v101 = res0 m c := by
  unfold entry1
  exact Function.update_self _ _ _

def outsOf : Gen.Outs (F := F) := fun _ r c =>
  if h : r = main_v101 then h ▸ res0 m c
  else if h' : r = main_v102 then h' ▸ res1 m c
  else Gen.V19 m c (Proc.devRef .tc r)

theorem outsOf_v101 (j : ℕ) (c : Dev nD) : outsOf m j main_v101 c = res0 m c := by
  unfold outsOf; rw [dif_pos rfl]

theorem outsOf_v102 (j : ℕ) (c : Dev nD) : outsOf m j main_v102 c = res1 m c := by
  unfold outsOf; rw [dif_neg (by decide), dif_pos rfl]

theorem V20_outsOf (c : Dev nD) : Gen.V20 m (outsOf m) c
    = Function.update (Gen.V19 m c) (Proc.devRef .tc main_v101) (res0 m c) := by
  show Function.update (Gen.V19 m c) (Proc.devRef .tc main_v101) (outsOf m 20 main_v101 c) = _
  rw [outsOf_v101]

theorem V21_outsOf (c : Dev nD) : Gen.V21 m (outsOf m) c
    = Function.update (Function.update (Gen.V19 m c) (Proc.devRef .tc main_v101) (res0 m c))
        (Proc.devRef .tc main_v102) (res1 m c) := by
  show Function.update (Gen.V20 m (outsOf m) c) (Proc.devRef .tc main_v102) (outsOf m 21 main_v102 c) = _
  rw [outsOf_v102, V20_outsOf]

theorem entry1_eq_V20 (c : Dev nD) (b : Ref sig .tc) :
    entry1 m c b = Gen.V20 m (outsOf m) c (Proc.devRef .tc b) := by
  rw [V20_outsOf]; rfl

theorem result_eq (c : Dev nD) : Gen.V22 m (outsOf m) c (Proc.devRef .tc main_v103)
    = shapeCast _ (res1 m c) shapeCasts_S4096x4096_S2x2048x4096 := by
  show StableHlo.after hostOps2 (Gen.V21 m (outsOf m) c) (Proc.devRef .tc main_v103) = _
  rw [V21_outsOf]
  simp only [StableHlo.after_cons, StableHlo.after_nil]
  rw [StableHlo.reshape_result]
  rw [Function.update_self]
  rfl

def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev noLevels : GSem nD τ sig → Finset Unit := fun _ => ∅
abbrev levelZero : GSem nD τ sig → Unit → ℕ := fun _ _ => 0

abbrev rest (c : Dev nD) : sProp (MM F) :=
  iprop((∃ r, prngReg c r) ∗ ∃ W, owes (c : Thread nD τ) (0 : CellTallies nD τ sig Unit) W)

def exit1 : Contents F := fun c b =>
  (Function.update (Function.update (Gen.V19 m c) (Proc.devRef .tc main_v101) (res0 m c))
    (Proc.devRef .tc main_v102) (res1 m c)) (Proc.devRef .tc b)

theorem exit1_of_ne (c : Dev nD) (b : Ref sig .tc) (hb : b ≠ main_v102) : exit1 m c b = entry1 m c b := by
  unfold exit1 entry1
  exact Function.update_of_ne (StableHlo.devRef_ne_of_ne hb) _ _

theorem exit1_v102 (c : Dev nD) : exit1 m c main_v102 = res1 m c := by
  unfold exit1
  exact Function.update_self _ _ _

theorem hF0 (c : Dev nD) : ∀ w : Fin cfg0.W,
    (dat0 (entry0 m) c).arrAt w cfg0.N = entry1 m c (Pipeline.arrRef spec0 w)
  | ⟨0, _⟩ => ((dat0 (entry0 m) c).arrAt_in 0 rfl cfg0.N).trans (entry1_of_ne m c main_v100 (by decide)).symm
  | ⟨1, _⟩ => ((dat0 (entry0 m) c).arrAt_in 1 rfl cfg0.N).trans (entry1_of_ne m c main_v40 (by decide)).symm
  | ⟨2, _⟩ => ((dat0 (entry0 m) c).arrAt_in 2 rfl cfg0.N).trans (entry1_of_ne m c main_v68 (by decide)).symm
  | ⟨3, _⟩ => (entry1_v101 m c).symm

theorem hrest0 (c : Dev nD) : ∀ b, b ∉ Finset.univ.image (Pipeline.arrRef spec0) → entry1 m c b = entry0 m c b :=
  fun b hb => entry1_of_ne m c b fun e => hb (Finset.mem_image.mpr ⟨3, Finset.mem_univ _, e.symm⟩)

theorem hF1 (c : Dev nD) : ∀ w : Fin cfg1.W,
    (dat1 (entry1 m) c).arrAt w cfg1.N = exit1 m c (Pipeline.arrRef spec1 w)
  | ⟨0, _⟩ => ((dat1 (entry1 m) c).arrAt_in 0 rfl cfg1.N).trans (exit1_of_ne m c main_v101 (by decide)).symm
  | ⟨1, _⟩ => ((dat1 (entry1 m) c).arrAt_in 1 rfl cfg1.N).trans (exit1_of_ne m c main_v99 (by decide)).symm
  | ⟨2, _⟩ => (exit1_v102 m c).symm

theorem hrest1 (c : Dev nD) : ∀ b, b ∉ Finset.univ.image (Pipeline.arrRef spec1) → exit1 m c b = entry1 m c b :=
  fun b hb => exit1_of_ne m c b fun e => hb (Finset.mem_image.mpr ⟨2, Finset.mem_univ _, e.symm⟩)

theorem held_entry0 (c : Dev nD) : (unscopedBufs c (entry0 m c) : sProp (MM F))
    = StableHlo.held (c : Thread nD τ) (Pipeline.ucRefs τ sig) (Gen.V19 m c) :=
  Pipeline.unscopedBufs_held c (Gen.V19 m c)

theorem held_entry1 (c : Dev nD) : (unscopedBufs c (entry1 m c) : sProp (MM F))
    = StableHlo.held (c : Thread nD τ) (Pipeline.ucRefs τ sig) (Gen.V20 m (outsOf m) c) := by
  rw [V20_outsOf]
  exact Pipeline.unscopedBufs_held c (Function.update (Gen.V19 m c) (Proc.devRef .tc main_v101) (res0 m c))

theorem held_exit1 (c : Dev nD) : (unscopedBufs c (exit1 m c) : sProp (MM F))
    = StableHlo.held (c : Thread nD τ) (Pipeline.ucRefs τ sig) (Gen.V21 m (outsOf m) c) := by
  rw [V21_outsOf]
  exact Pipeline.unscopedBufs_held c (Function.update (Function.update (Gen.V19 m c) (Proc.devRef .tc main_v101) (res0 m c))
    (Proc.devRef .tc main_v102) (res1 m c))

set_option backward.isDefEq.respectTransparency.types false in

def reg0 : Pipeline.RegionSeg (pcfgs (F := F)) Gen.adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (Gen.V19 m c) ∗ rest c)
  post c := iprop(StableHlo.held (c : Thread nD τ) (Pipeline.ucRefs τ sig) (Gen.V20 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      (((pdats m) 0 c).share_full fun _ => rfl) (entry0 m c) fun _ => rfl
    rw [held_entry0 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) (((pdats m) 0 c).share_full fun _ => rfl)
      (entry0 m c) (entry1 m c) (((pdats m) 0 c).arrAt · cfg0.N) (hF0 m c) (hrest0 m c)
    rw [held_entry1 m c] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (Gen.V20 m (outsOf m) c) ∗ rest c)
  post c := iprop(StableHlo.held (c : Thread nD τ) (Pipeline.ucRefs τ sig) (Gen.V21 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      (((pdats m) 1 c).share_full fun _ => rfl) (entry1 m c) fun _ => rfl
    rw [held_entry1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) (((pdats m) 1 c).share_full fun _ => rfl)
      (entry1 m c) (exit1 m c) (((pdats m) 1 c).arrAt · cfg1.N) (hF1 m c) (hrest1 m c)
    rw [held_exit1 m c] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v103) = Gen.V22 m (outsOf m) c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.run_cond m emb₁ () Variants.none noLevels levelZero (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (E := fun _ c => rest c)
    (hE0 := by
      refine Pipeline.initEach noLevels levelZero fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Launch

end Cert.KernelIdeal.Hand

end
-- ==== Proof.KI.FrameAny.lean ====
import proofs.«412500_j21947282883010_2_alg».proof.Proof.KI.Launch

set_option maxRecDepth 16384

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen

variable {F : FTy → Type} [FloatOps F]

theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Hand

end
-- ==== Proof.KI.R0Pieces.lean ====
import proofs.«412500_j21947282883010_2_alg».proof.Proof.KI.R0Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz0 : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
  (x0 x1 x2 : Vec F S1024x1024 .bf16) (xs0 xs1 : Vec F S1024x1024 .f32)

/-- Where k = 0 each accumulator is set to zero and then gains its product. -/
theorem piecesA (hc0 : cond0_0 i) (hc1 : ¬cond0_1 i) (r) (hr : r = kernelRun0_A c i arg3 harg3 arg4 harg4 arg5 harg5 arg6 harg6 arg7 harg7 arg8 harg8 x0 x1 x2 hc0 hc1) :
    rdb VS0_0 r.2.1 = k0_pay4 x0 k0_pay1 x1 ∧ rdb VS0_1 r.2.2.1 = k0_pay5 x0 k0_pay2 x2 := by
  subst hr
  refine ⟨(rdb_canon _ _ ?_).trans ?_, (rdb_canon _ _ ?_).trans ?_⟩
  all_goals first
    | (unfold kernelRun0_A; dsimp only; sl_unfold_words
       rw [View.canon_cons_unit_zero (S := S1024x1024) hz0, View.readCov_unit_zero (S := S1024x1024) _ hz0]
       simp only [View.readAt_eq_ld, harg3.read_unread, harg4.read_unread, harg5.read_unread, harg7.read_unread, harg8.read_unread, View.readCov_unit_zero (S := S1024x1024) _ hz0, View.ld_unit_zero (S := S1024x1024) hz0])
    | sl_kernel_rfl

/-- Where 0 < k < 3 each accumulator gains its product over what it held. -/
theorem piecesB (hc0 : ¬cond0_0 i) (hc1 : ¬cond0_1 i) (r) (hr : r = kernelRun0_B c i arg3 harg3 arg4 harg4 arg5 harg5 arg6 harg6 arg7 harg7 arg8 harg8 x0 x1 x2 xs0 xs1 hc0 hc1) :
    rdb VS0_0 r.2.1 = k0_pay4 x0 xs0 x1 ∧ rdb VS0_1 r.2.2.1 = k0_pay5 x0 xs1 x2 := by
  subst hr
  refine ⟨(rdb_canon _ _ ?_).trans ?_, (rdb_canon _ _ ?_).trans ?_⟩
  all_goals first
    | (unfold kernelRun0_B; dsimp only; sl_unfold_words; rw [View.canon_unit_zero hz0]
       simp only [View.readAt_eq_ld, harg3.read_unread, harg4.read_unread, harg5.read_unread, harg7.read_unread, harg8.read_unread, View.readCov_unit_zero (S := S1024x1024) _ hz0, View.ld_unit_zero (S := S1024x1024) hz0])
    | sl_kernel_rfl

/-- Where k = 3 the same, and the output block is silu(gate) * up of the two accumulators just updated. -/
theorem piecesC (hc0 : ¬cond0_0 i) (hc1 : cond0_1 i) (r) (hr : r = kernelRun0_C c i arg3 harg3 arg4 harg4 arg5 harg5 arg6 harg6 arg7 harg7 arg8 harg8 x0 x1 x2 xs0 xs1 hc0 hc1) :
    rdb VO0_3 r.1 = k0_pay6 (rdb VS0_0 r.2.1) (rdb VS0_1 r.2.2.1) ∧ rdb VS0_0 r.2.1 = k0_pay4 x0 xs0 x1 ∧ rdb VS0_1 r.2.2.1 = k0_pay5 x0 xs1 x2 := by
  subst hr
  have h : rdb VS0_0 (kernelRun0_C c i arg3 harg3 arg4 harg4 arg5 harg5 arg6 harg6 arg7 harg7 arg8 harg8 x0 x1 x2 xs0 xs1 hc0 hc1).2.1 = k0_pay4 x0 xs0 x1 ∧ rdb VS0_1 (kernelRun0_C c i arg3 harg3 arg4 harg4 arg5 harg5 arg6 harg6 arg7 harg7 arg8 harg8 x0 x1 x2 xs0 xs1 hc0 hc1).2.2.1 = k0_pay5 x0 xs1 x2 := by
    refine ⟨(rdb_canon _ _ ?_).trans ?_, (rdb_canon _ _ ?_).trans ?_⟩
    all_goals first
      | (unfold kernelRun0_C; dsimp only; sl_unfold_words; rw [View.canon_unit_zero hz0]
         simp only [View.readAt_eq_ld, harg3.read_unread, harg4.read_unread, harg5.read_unread, harg7.read_unread, harg8.read_unread, View.readCov_unit_zero (S := S1024x1024) _ hz0, View.ld_unit_zero (S := S1024x1024) hz0])
      | sl_kernel_rfl
  refine ⟨?_, h⟩
  rw [h.1, h.2]
  refine (rdb_canon _ _ ?_).trans ?_
  · sl_kernel_rfl
  · unfold kernelRun0_C; dsimp only; sl_unfold_words; rw [View.canon_unit_zero hz0]
    simp only [View.readAt_eq_ld, harg3.read_unread, harg4.read_unread, harg5.read_unread, harg7.read_unread, harg8.read_unread, View.readCov_unit_zero (S := S1024x1024) _ hz0, View.ld_unit_zero (S := S1024x1024) hz0]

end

variable (V : Contents F) (c : Dev nD) (t : Fin cfg0.N)

/-- At a point with k = 0 each accumulator is the zero block plus the point's product. -/
theorem acc0_first (h0 : t.val % 4 = 0) :
    (outsAt0 V c t.val t.isLt).2.1 = k0_pay4 (iblk0 V c 0 t) k0_pay1 (iblk0 V c 1 t)
      ∧ (outsAt0 V c t.val t.isLt).2.2 = k0_pay5 (iblk0 V c 0 t) k0_pay2 (iblk0 V c 2 t) := by
  rw [outsAt0_A V c t h0]; dsimp only
  exact piecesA c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) _ _ (runA V c t h0) rfl

/-- At a point with k > 0 each accumulator is what the point before left plus the point's product. -/
theorem acc0_step (h0 : ¬t.val % 4 = 0) :
    (outsAt0 V c t.val t.isLt).2.1 = k0_pay4 (iblk0 V c 0 t) (outsAt0 V c (t.val - 1) (pred_lt0 t)).2.1 (iblk0 V c 1 t)
      ∧ (outsAt0 V c t.val t.isLt).2.2 = k0_pay5 (iblk0 V c 0 t) (outsAt0 V c (t.val - 1) (pred_lt0 t)).2.2 (iblk0 V c 2 t) := by
  by_cases h1 : t.val % 4 = 3
  · rw [outsAt0_C V c t h0 h1]; dsimp only
    exact (piecesC c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) _ _ _ _ (runC V c t h0 h1 (outsAt0 V c (t.val - 1) (pred_lt0 t)).2) rfl).2
  · rw [outsAt0_B V c t h0 h1]; dsimp only
    exact piecesB c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) _ _ _ _ (runB V c t h0 h1 (outsAt0 V c (t.val - 1) (pred_lt0 t)).2) rfl

/-- At a point with k = 3 the output block is silu(gate) * up of the accumulators as that point leaves them. -/
theorem out0_last (h1 : t.val % 4 = 3) :
    (outsAt0 V c t.val t.isLt).1 = k0_pay6 (outsAt0 V c t.val t.isLt).2.1 (outsAt0 V c t.val t.isLt).2.2 := by
  have h0 : ¬t.val % 4 = 0 := by omega
  rw [outsAt0_C V c t h0 h1]; dsimp only
  exact (piecesC c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t) _ _ _ _ (runC V c t h0 h1 (outsAt0 V c (t.val - 1) (pred_lt0 t)).2) rfl).1

end Cert.KernelIdeal.Hand

end
-- ==== Proof.KI.R0Pay.lean ====
import proofs.«412500_j21947282883010_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx
open Cert.KernelIdeal Cert.KernelIdeal.Gen

abbrev dotGU : DotDims S1024x1024 S1024x1024 S1024x1024 := dot_S1024x1024_S1024x1024_S1024x1024_1_0_0_1_n_n

theorem lhsIdx_row (i : S1024x1024.Idx) (k : dotGU.contr.Idx) : (dotGU.lhsIdx i k 0).val = (i 0).val := by
  unfold DotDims.lhsIdx
  rw [dif_neg (show ¬(0 : Fin S1024x1024.rank) ∈ dotGU.lhsBatch by decide), dif_pos (show (0 : Fin S1024x1024.rank) ∈ dotGU.lhsNonContracting by decide)]
  rfl

theorem lhsIdx_col (i : S1024x1024.Idx) (k : dotGU.contr.Idx) : (dotGU.lhsIdx i k 1).val = (k ⟨0, by decide⟩).val :=
  dotGU.lhsIdx_val_of_single rfl i k

theorem rhsIdx_row (i : S1024x1024.Idx) (k : dotGU.contr.Idx) : (dotGU.rhsIdx i k 0).val = (k ⟨0, by decide⟩).val :=
  dotGU.rhsIdx_val_of_single rfl i k

theorem rhsIdx_col (i : S1024x1024.Idx) (k : dotGU.contr.Idx) : (dotGU.rhsIdx i k 1).val = (i 1).val := by
  unfold DotDims.rhsIdx
  rw [dif_neg (show ¬(1 : Fin S1024x1024.rank) ∈ dotGU.rhsBatch by decide), dif_pos (show (1 : Fin S1024x1024.rank) ∈ dotGU.rhsNonContracting by decide)]
  rfl

theorem matmul_zero_apply (x w : FVec Ideal S1024x1024 .bf16) (p q : Fin 1024) :
    matmul dotGU none x w (constant S1024x1024 .f32 0x00000000#32) (ix2 p q) = ∑ l : Fin 1024, x (ix2 p l) * w (ix2 l q) := by
  show FloatOps.matmul dotGU none x w (constant S1024x1024 .f32 0x00000000#32) (ix2 p q) = _
  rw [Ideal.matmul_constant_zero_apply, ← Equiv.sum_comp (contrEquiv1 dotGU 1024 rfl rfl).symm]
  refine Finset.sum_congr rfl fun l _ => ?_
  have hl := contrEquiv1_symm_val dotGU 1024 rfl rfl l
  have el : dotGU.lhsIdx (ix2 p q) ((contrEquiv1 dotGU 1024 rfl rfl).symm l) = ix2 p l := funext fun a => Fin.ext (by
    match a with
    | ⟨0, _⟩ => exact lhsIdx_row _ _
    | ⟨1, _⟩ => exact (lhsIdx_col _ _).trans hl)
  have er : dotGU.rhsIdx (ix2 p q) ((contrEquiv1 dotGU 1024 rfl rfl).symm l) = ix2 l q := funext fun a => Fin.ext (by
    match a with
    | ⟨0, _⟩ => exact (rhsIdx_row _ _).trans hl
    | ⟨1, _⟩ => exact rhsIdx_col _ _)
  rw [el, er]

theorem pay1_apply (i : S1024x1024.Idx) : k0_pay1 (F := Ideal) i = 0 := by
  unfold k0_pay1
  rw [shapeCast_self]
  exact Ideal.ofBits_zero_f32

theorem pay2_apply (i : S1024x1024.Idx) : k0_pay2 (F := Ideal) i = 0 := by
  unfold k0_pay2
  rw [shapeCast_self]
  exact Ideal.ofBits_zero_f32

theorem pay4_apply (x : Vec Ideal S1024x1024 .bf16) (a : Vec Ideal S1024x1024 .f32) (w : Vec Ideal S1024x1024 .bf16) (p q : Fin 1024) :
    k0_pay4 (F := Ideal) x a w (ix2 p q) = a (ix2 p q) + ∑ l : Fin 1024, x (ix2 p l) * w (ix2 l q) := by
  unfold k0_pay4 k0_pay3
  rw [shapeCast_self, shapeCast_self, shapeCast_self]
  exact congrArg (a (ix2 p q) + ·) (matmul_zero_apply x w p q)

theorem pay5_apply (x : Vec Ideal S1024x1024 .bf16) (a : Vec Ideal S1024x1024 .f32) (w : Vec Ideal S1024x1024 .bf16) (p q : Fin 1024) :
    k0_pay5 (F := Ideal) x a w (ix2 p q) = a (ix2 p q) + ∑ l : Fin 1024, x (ix2 p l) * w (ix2 l q) := by
  unfold k0_pay5 k0_pay3
  rw [shapeCast_self, shapeCast_self, shapeCast_self]
  exact congrArg (a (ix2 p q) + ·) (matmul_zero_apply x w p q)

theorem pay6_apply (g u : Vec Ideal S1024x1024 .f32) (i : S1024x1024.Idx) :
    k0_pay6 (F := Ideal) g u i = (g i * Ideal.logistic (g i)) * u i := rfl

end Cert.KernelIdeal.Hand

end
-- ==== Proof.KI.R0Grid.lean ====
import proofs.«412500_j21947282883010_2_alg».proof.Proof.KI.R0Runs
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

theorem index0_0 : ∀ t : Fin cfg0.N, win0_0.index t 0 = t.val / 44 ∧ win0_0.index t 1 = t.val % 4 :=
  (by decide +kernel : ∀ t : Fin grid0.N, win0_0.index t 0 = t.val / 44 ∧ win0_0.index t 1 = t.val % 4)

theorem index0_1 : ∀ t : Fin cfg0.N, win0_1.index t 0 = t.val % 4 ∧ win0_1.index t 1 = t.val / 4 % 11 :=
  (by decide +kernel : ∀ t : Fin grid0.N, win0_1.index t 0 = t.val % 4 ∧ win0_1.index t 1 = t.val / 4 % 11)

theorem index0_2 : ∀ t : Fin cfg0.N, win0_2.index t 0 = t.val % 4 ∧ win0_2.index t 1 = t.val / 4 % 11 :=
  (by decide +kernel : ∀ t : Fin grid0.N, win0_2.index t 0 = t.val % 4 ∧ win0_2.index t 1 = t.val / 4 % 11)

theorem index0_3 : ∀ t : Fin cfg0.N, win0_3.index t 0 = t.val / 44 ∧ win0_3.index t 1 = t.val / 4 % 11 :=
  (by decide +kernel : ∀ t : Fin grid0.N, win0_3.index t 0 = t.val / 44 ∧ win0_3.index t 1 = t.val / 4 % 11)

theorem cfg0_N : cfg0.N = 176 := N_0

abbrev xarr0 (V : Contents F) (c : Dev nD) : Vec F S4096x4096 .bf16 := V c main_v100

abbrev garr0 (V : Contents F) (c : Dev nD) : Vec F S4096x11264 .bf16 := V c main_v40

abbrev uarr0 (V : Contents F) (c : Dev nD) : Vec F S4096x11264 .bf16 := V c main_v68

abbrev xblk0 (V : Contents F) (c : Dev nD) (t : Fin cfg0.N) : Vec F S1024x1024 .bf16 := iblk0 V c 0 t

abbrev gblk0 (V : Contents F) (c : Dev nD) (t : Fin cfg0.N) : Vec F S1024x1024 .bf16 := iblk0 V c 1 t

abbrev ublk0 (V : Contents F) (c : Dev nD) (t : Fin cfg0.N) : Vec F S1024x1024 .bf16 := iblk0 V c 2 t

theorem row0_lt {a : ℕ} (ha : a < 4) (p : Fin 1024) : a * 1024 + p.val < 4096 := by have := p.isLt; omega

theorem col0_lt {b : ℕ} (hb : b < 11) (q : Fin 1024) : b * 1024 + q.val < 11264 := by have := q.isLt; omega

theorem gi0_lt (t : Fin cfg0.N) : t.val / 44 < 4 := by have := lt_of_lt_of_eq t.isLt cfg0_N; omega
theorem gj0_lt (t : Fin cfg0.N) : t.val / 4 % 11 < 11 := Nat.mod_lt _ (by decide)
theorem gk0_lt (t : Fin cfg0.N) : t.val % 4 < 4 := Nat.mod_lt _ (by decide)

theorem xblk0_apply (V : Contents F) (c : Dev nD) (t : Fin cfg0.N) (p l : Fin 1024) :
    xblk0 V c t (ix2 p l) = xarr0 V c (ix2 ⟨t.val / 44 * 1024 + p.val, row0_lt (gi0_lt t) p⟩ ⟨t.val % 4 * 1024 + l.val, row0_lt (gk0_lt t) l⟩) := by
  have hi := index0_0 t
  unfold xblk0 iblk0
  rw [View.read_apply]
  show V c main_v100 _ = V c main_v100 _
  congr 1
  funext a
  apply Fin.ext
  match a with
  | ⟨0, _⟩ => show win0_0.index t 0 * 1024 + 1 * p.val = t.val / 44 * 1024 + p.val; rw [hi.1]; omega
  | ⟨1, _⟩ => show win0_0.index t 1 * 1024 + 1 * l.val = t.val % 4 * 1024 + l.val; rw [hi.2]; omega

theorem gblk0_apply (V : Contents F) (c : Dev nD) (t : Fin cfg0.N) (l q : Fin 1024) :
    gblk0 V c t (ix2 l q) = garr0 V c (ix2 ⟨t.val % 4 * 1024 + l.val, row0_lt (gk0_lt t) l⟩ ⟨t.val / 4 % 11 * 1024 + q.val, col0_lt (gj0_lt t) q⟩) := by
  have hi := index0_1 t
  unfold gblk0 iblk0
  rw [View.read_apply]
  show V c main_v40 _ = V c main_v40 _
  congr 1
  funext a
  apply Fin.ext
  match a with
  | ⟨0, _⟩ => show win0_1.index t 0 * 1024 + 1 * l.val = t.val % 4 * 1024 + l.val; rw [hi.1]; omega
  | ⟨1, _⟩ => show win0_1.index t 1 * 1024 + 1 * q.val = t.val / 4 % 11 * 1024 + q.val; rw [hi.2]; omega

theorem ublk0_apply (V : Contents F) (c : Dev nD) (t : Fin cfg0.N) (l q : Fin 1024) :
    ublk0 V c t (ix2 l q) = uarr0 V c (ix2 ⟨t.val % 4 * 1024 + l.val, row0_lt (gk0_lt t) l⟩ ⟨t.val / 4 % 11 * 1024 + q.val, col0_lt (gj0_lt t) q⟩) := by
  have hi := index0_2 t
  unfold ublk0 iblk0
  rw [View.read_apply]
  show V c main_v68 _ = V c main_v68 _
  congr 1
  funext a
  apply Fin.ext
  match a with
  | ⟨0, _⟩ => show win0_2.index t 0 * 1024 + 1 * l.val = t.val % 4 * 1024 + l.val; rw [hi.1]; omega
  | ⟨1, _⟩ => show win0_2.index t 1 * 1024 + 1 * q.val = t.val / 4 % 11 * 1024 + q.val; rw [hi.2]; omega

theorem oblk0_read (G : Vec F S4096x11264 .bf16) (t : Fin cfg0.N) (p q : Fin 1024) :
    (((cfg0.win 3).blk t).view.read (Elt F) G : Vec F S1024x1024 .bf16) (ix2 p q)
      = G (ix2 ⟨t.val / 44 * 1024 + p.val, row0_lt (gi0_lt t) p⟩ ⟨t.val / 4 % 11 * 1024 + q.val, col0_lt (gj0_lt t) q⟩) := by
  have hi := index0_3 t
  rw [View.read_apply]
  show G _ = G _
  congr 1
  funext a
  apply Fin.ext
  match a with
  | ⟨0, _⟩ => show win0_3.index t 0 * 1024 + 1 * p.val = t.val / 44 * 1024 + p.val; rw [hi.1]; omega
  | ⟨1, _⟩ => show win0_3.index t 1 * 1024 + 1 * q.val = t.val / 4 % 11 * 1024 + q.val; rw [hi.2]; omega

end Cert.KernelIdeal.Hand

end
-- ==== Proof.KI.R0Sum.lean ====
import Mathlib.Algebra.BigOperators.Fin
import Mathlib.Algebra.BigOperators.Intervals

namespace Cert.KernelIdeal.Hand

theorem sum_range_mul_blocks {M : Type*} [AddCommMonoid M] (f : ℕ → M) (b : ℕ) :
    ∀ a : ℕ, ∑ m ∈ Finset.range (a * b), f m = ∑ i ∈ Finset.range a, ∑ j ∈ Finset.range b, f (i * b + j)
  | 0 => by simp
  | a + 1 => by
    rw [Nat.succ_mul, Finset.sum_range_add, sum_range_mul_blocks f b a, Finset.sum_range_succ]

theorem sum_fin_mul_blocks {M : Type*} [AddCommMonoid M] (f : ℕ → M) (a b : ℕ) :
    ∑ m : Fin (a * b), f m.val = ∑ i ∈ Finset.range a, ∑ j : Fin b, f (i * b + j.val) := by
  rw [Fin.sum_univ_eq_sum_range f (a * b), sum_range_mul_blocks f b a]
  exact Finset.sum_congr rfl fun i _ => (Fin.sum_univ_eq_sum_range (fun j => f (i * b + j)) b).symm

end Cert.KernelIdeal.Hand
-- ==== Proof.KI.Spec.lean ====
import Idealize.ShloMosaic.PureOps.Ideal
import Idealize.ShloMosaic.Lib.ValueIdx

noncomputable section

namespace Cert.Spec

open Idealize.ShloMosaic Idealize.ShloMosaic.ValueIdx

abbrev Sx : Shape := ⟨2, ![4096, 4096]⟩

abbrev Sw : Shape := ⟨2, ![4096, 11264]⟩

abbrev Sd : Shape := ⟨2, ![11264, 4096]⟩

def proj (x : Sx.Idx → EReal) (w : Sw.Idx → EReal) (r : Fin 4096) (n : Fin 11264) : EReal :=
  ∑ k : Fin 4096, x (ix2 r k) * w (ix2 k n)

def hidden (x : Sx.Idx → EReal) (wg wu : Sw.Idx → EReal) : Sw.Idx → EReal := fun i =>
  (proj x wg ⟨(i 0).val, idx2_lt0 i⟩ ⟨(i 1).val, idx2_lt1 i⟩ * Ideal.logistic (proj x wg ⟨(i 0).val, idx2_lt0 i⟩ ⟨(i 1).val, idx2_lt1 i⟩))
    * proj x wu ⟨(i 0).val, idx2_lt0 i⟩ ⟨(i 1).val, idx2_lt1 i⟩

def down (h : Sw.Idx → EReal) (w : Sd.Idx → EReal) : Sx.Idx → EReal := fun i =>
  ∑ n : Fin 11264, h (ix2 ⟨(i 0).val, idx2_lt0 i⟩ n) * w (ix2 n ⟨(i 1).val, idx2_lt1 i⟩)

end Cert.Spec

end
-- ==== Proof.KI.R0Terms.lean ====
import proofs.«412500_j21947282883010_2_alg».proof.Proof.KI.R0Grid
import proofs.«412500_j21947282883010_2_alg».proof.Proof.KI.R0Sum
import proofs.«412500_j21947282883010_2_alg».proof.Proof.KI.Spec

noncomputable section

namespace Cert.KernelIdeal.Hand

open Idealize.ShloMosaic Idealize.ShloMosaic.TcCoe Idealize.ShloMosaic.ValueIdx
open Cert.KernelIdeal Cert.KernelIdeal.Gen

def term0 (x : Cert.Spec.Sx.Idx → EReal) (w : Cert.Spec.Sw.Idx → EReal) (r n m : ℕ) : EReal :=
  if h : r < 4096 ∧ n < 11264 ∧ m < 4096 then x (ix2 ⟨r, h.1⟩ ⟨m, h.2.2⟩) * w (ix2 ⟨m, h.2.2⟩ ⟨n, h.2.1⟩) else 0

theorem term0_of_lt (x : Cert.Spec.Sx.Idx → EReal) (w : Cert.Spec.Sw.Idx → EReal) {r n m : ℕ} (hr : r < 4096) (hn : n < 11264) (hm : m < 4096) :
    term0 x w r n m = x (ix2 ⟨r, hr⟩ ⟨m, hm⟩) * w (ix2 ⟨m, hm⟩ ⟨n, hn⟩) := dif_pos ⟨hr, hn, hm⟩

def run0 (x : Cert.Spec.Sx.Idx → EReal) (w : Cert.Spec.Sw.Idx → EReal) (r n k : ℕ) : EReal :=
  ∑ a ∈ Finset.range (k + 1), ∑ l : Fin 1024, term0 x w r n (a * 1024 + l.val)

theorem run0_zero (x : Cert.Spec.Sx.Idx → EReal) (w : Cert.Spec.Sw.Idx → EReal) (r n : ℕ) :
    run0 x w r n 0 = ∑ l : Fin 1024, term0 x w r n (0 * 1024 + l.val) := Finset.sum_range_one _

theorem run0_succ (x : Cert.Spec.Sx.Idx → EReal) (w : Cert.Spec.Sw.Idx → EReal) (r n k : ℕ) :
    run0 x w r n (k + 1) = run0 x w r n k + ∑ l : Fin 1024, term0 x w r n ((k + 1) * 1024 + l.val) := Finset.sum_range_succ _ _

theorem run0_three (x : Cert.Spec.Sx.Idx → EReal) (w : Cert.Spec.Sw.Idx → EReal) {r n : ℕ} (hr : r < 4096) (hn : n < 11264) :
    run0 x w r n 3 = Cert.Spec.proj x w ⟨r, hr⟩ ⟨n, hn⟩ := by
  unfold run0 Cert.Spec.proj
  rw [← sum_fin_mul_blocks (fun m => term0 x w r n m) 4 1024]
  show ∑ m : Fin 4096, term0 x w r n m.val = _
  exact Finset.sum_congr rfl fun m _ => term0_of_lt x w hr hn m.isLt

theorem gate_block_sum (V : Contents Ideal) (c : Dev nD) (t : Fin cfg0.N) (p q : Fin 1024) :
    ∑ l : Fin 1024, xblk0 V c t (ix2 p l) * gblk0 V c t (ix2 l q)
      = ∑ l : Fin 1024, term0 (xarr0 V c) (garr0 V c) (t.val / 44 * 1024 + p.val) (t.val / 4 % 11 * 1024 + q.val) (t.val % 4 * 1024 + l.val) :=
  Finset.sum_congr rfl fun l _ =>
    (congrArg₂ (· * ·) (xblk0_apply V c t p l) (gblk0_apply V c t l q)).trans
      (term0_of_lt (xarr0 V c) (garr0 V c) (row0_lt (gi0_lt t) p) (col0_lt (gj0_lt t) q) (row0_lt (gk0_lt t) l)).symm

theorem up_block_sum (V : Contents Ideal) (c : Dev nD) (t : Fin cfg0.N) (p q : Fin 1024) :
    ∑ l : Fin 1024, xblk0 V c t (ix2 p l) * ublk0 V c t (ix2 l q)
      = ∑ l : Fin 1024, term0 (xarr0 V c) (uarr0 V c) (t.val / 44 * 1024 + p.val) (t.val / 4 % 11 * 1024 + q.val) (t.val % 4 * 1024 + l.val) :=
  Finset.sum_congr rfl fun l _ =>
    (congrArg₂ (· * ·) (xblk0_apply V c t p l) (ublk0_apply V c t l q)).trans
      (term0_of_lt (xarr0 V c) (uarr0 V c) (row0_lt (gi0_lt t) p) (col0_lt (gj0_lt t) q) (row0_lt (gk0_lt t) l)).symm

end Cert.KernelIdeal.Hand

end
-- ==== Proof.KI.R0Value.lean ====
import proofs.«412500_j21947282883010_2_alg».proof.Proof.KI.R0Pieces
import proofs.«412500_j21947282883010_2_alg».proof.Proof.KI.R0Pay
import proofs.«412500_j21947282883010_2_alg».proof.Proof.KI.R0Terms

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

theorem gate_first (V : Contents Ideal) (c : Dev nD) (t : Fin cfg0.N) (h0 : t.val % 4 = 0) (p q : Fin 1024) :
    (outsAt0 V c t.val t.isLt).2.1 (ix2 p q)
      = ∑ l : Fin 1024, term0 (xarr0 V c) (garr0 V c) (t.val / 44 * 1024 + p.val) (t.val / 4 % 11 * 1024 + q.val) (t.val % 4 * 1024 + l.val) := by
  refine (congrFun (acc0_first (F := Ideal) V c t h0).1 (ix2 p q)).trans ?_
  refine (pay4_apply (xblk0 V c t) (k0_pay1 (F := Ideal)) (gblk0 V c t) p q).trans ?_
  rw [pay1_apply, zero_add]
  exact gate_block_sum V c t p q

theorem gate_step (V : Contents Ideal) (c : Dev nD) (t : Fin cfg0.N) (h0 : ¬t.val % 4 = 0) (p q : Fin 1024) :
    (outsAt0 V c t.val t.isLt).2.1 (ix2 p q)
      = (outsAt0 V c (t.val - 1) (pred_lt0 t)).2.1 (ix2 p q)
        + ∑ l : Fin 1024, term0 (xarr0 V c) (garr0 V c) (t.val / 44 * 1024 + p.val) (t.val / 4 % 11 * 1024 + q.val) (t.val % 4 * 1024 + l.val) := by
  refine (congrFun (acc0_step (F := Ideal) V c t h0).1 (ix2 p q)).trans ?_
  refine (pay4_apply (xblk0 V c t) (outsAt0 V c (t.val - 1) (pred_lt0 t)).2.1 (gblk0 V c t) p q).trans ?_
  exact congrArg ((outsAt0 V c (t.val - 1) (pred_lt0 t)).2.1 (ix2 p q) + ·) (gate_block_sum V c t p q)

/-- An accumulator that holds the block's product at the first step of a contraction and gains the block's product at
    each later step holds, after every point, the contraction's sum as far as it has run. -/
theorem acc_inv (V : Contents Ideal) (c : Dev nD) (w : Cert.Spec.Sw.Idx → EReal) (a : (n : ℕ) → n < cfg0.N → S1024x1024.Idx → EReal)
    (hfirst : ∀ t : Fin cfg0.N, t.val % 4 = 0 → ∀ p q : Fin 1024, a t.val t.isLt (ix2 p q) = ∑ l : Fin 1024, term0 (xarr0 V c) w (t.val / 44 * 1024 + p.val) (t.val / 4 % 11 * 1024 + q.val) (t.val % 4 * 1024 + l.val))
    (hstep : ∀ t : Fin cfg0.N, ¬t.val % 4 = 0 → ∀ p q : Fin 1024, a t.val t.isLt (ix2 p q) = a (t.val - 1) (pred_lt0 t) (ix2 p q) + ∑ l : Fin 1024, term0 (xarr0 V c) w (t.val / 44 * 1024 + p.val) (t.val / 4 % 11 * 1024 + q.val) (t.val % 4 * 1024 + l.val)) :
    ∀ (n : ℕ) (hn : n < cfg0.N) (p q : Fin 1024),
      a n hn (ix2 p q) = run0 (xarr0 V c) w (n / 44 * 1024 + p.val) (n / 4 % 11 * 1024 + q.val) (n % 4)
  | 0, hn, p, q => (hfirst ⟨0, hn⟩ rfl p q).trans (run0_zero (xarr0 V c) w _ _).symm
  | n + 1, hn, p, q => by
    by_cases h0 : (n + 1) % 4 = 0
    · refine (hfirst ⟨n + 1, hn⟩ h0 p q).trans ?_
      show ∑ l : Fin 1024, term0 (xarr0 V c) w ((n + 1) / 44 * 1024 + p.val) ((n + 1) / 4 % 11 * 1024 + q.val) ((n + 1) % 4 * 1024 + l.val)
        = run0 (xarr0 V c) w ((n + 1) / 44 * 1024 + p.val) ((n + 1) / 4 % 11 * 1024 + q.val) ((n + 1) % 4)
      rw [h0]
      exact (run0_zero (xarr0 V c) w _ _).symm
    · refine (hstep ⟨n + 1, hn⟩ h0 p q).trans ?_
      show a n (Nat.lt_of_succ_lt hn) (ix2 p q) + ∑ l : Fin 1024, term0 (xarr0 V c) w ((n + 1) / 44 * 1024 + p.val) ((n + 1) / 4 % 11 * 1024 + q.val) ((n + 1) % 4 * 1024 + l.val)
        = run0 (xarr0 V c) w ((n + 1) / 44 * 1024 + p.val) ((n + 1) / 4 % 11 * 1024 + q.val) ((n + 1) % 4)
      rw [acc_inv V c w a hfirst hstep n (Nat.lt_of_succ_lt hn) p q]
      have e1 : (n + 1) / 44 = n / 44 := by omega
      have e2 : (n + 1) / 4 % 11 = n / 4 % 11 := by omega
      have e3 : (n + 1) % 4 = n % 4 + 1 := by omega
      rw [e1, e2, e3]
      exact (run0_succ (xarr0 V c) w _ _ _).symm

theorem gate_inv (V : Contents Ideal) (c : Dev nD) : ∀ (n : ℕ) (hn : n < cfg0.N) (p q : Fin 1024),
    (outsAt0 V c n hn).2.1 (ix2 p q) = run0 (xarr0 V c) (garr0 V c) (n / 44 * 1024 + p.val) (n / 4 % 11 * 1024 + q.val) (n % 4) :=
  acc_inv V c (garr0 V c) (fun n hn => (outsAt0 V c n hn).2.1) (gate_first V c) (gate_step V c)

theorem up_first (V : Contents Ideal) (c : Dev nD) (t : Fin cfg0.N) (h0 : t.val % 4 = 0) (p q : Fin 1024) :
    (outsAt0 V c t.val t.isLt).2.2 (ix2 p q)
      = ∑ l : Fin 1024, term0 (xarr0 V c) (uarr0 V c) (t.val / 44 * 1024 + p.val) (t.val / 4 % 11 * 1024 + q.val) (t.val % 4 * 1024 + l.val) := by
  refine (congrFun (acc0_first (F := Ideal) V c t h0).2 (ix2 p q)).trans ?_
  refine (pay5_apply (xblk0 V c t) (k0_pay2 (F := Ideal)) (ublk0 V c t) p q).trans ?_
  rw [pay2_apply, zero_add]
  exact up_block_sum V c t p q

theorem up_step (V : Contents Ideal) (c : Dev nD) (t : Fin cfg0.N) (h0 : ¬t.val % 4 = 0) (p q : Fin 1024) :
    (outsAt0 V c t.val t.isLt).2.2 (ix2 p q)
      = (outsAt0 V c (t.val - 1) (pred_lt0 t)).2.2 (ix2 p q)
        + ∑ l : Fin 1024, term0 (xarr0 V c) (uarr0 V c) (t.val / 44 * 1024 + p.val) (t.val / 4 % 11 * 1024 + q.val) (t.val % 4 * 1024 + l.val) := by
  refine (congrFun (acc0_step (F := Ideal) V c t h0).2 (ix2 p q)).trans ?_
  refine (pay5_apply (xblk0 V c t) (outsAt0 V c (t.val - 1) (pred_lt0 t)).2.2 (ublk0 V c t) p q).trans ?_
  exact congrArg ((outsAt0 V c (t.val - 1) (pred_lt0 t)).2.2 (ix2 p q) + ·) (up_block_sum V c t p q)

theorem up_inv (V : Contents Ideal) (c : Dev nD) : ∀ (n : ℕ) (hn : n < cfg0.N) (p q : Fin 1024),
    (outsAt0 V c n hn).2.2 (ix2 p q) = run0 (xarr0 V c) (uarr0 V c) (n / 44 * 1024 + p.val) (n / 4 % 11 * 1024 + q.val) (n % 4) :=
  acc_inv V c (uarr0 V c) (fun n hn => (outsAt0 V c n hn).2.2) (up_first V c) (up_step V c)

theorem out0_last_apply (V : Contents Ideal) (c : Dev nD) (t : Fin cfg0.N) (h1 : t.val % 4 = 3) (p q : Fin 1024) :
    (outsAt0 V c t.val t.isLt).1 (ix2 p q)
      = Cert.Spec.hidden (xarr0 V c) (garr0 V c) (uarr0 V c)
          (ix2 ⟨t.val / 44 * 1024 + p.val, row0_lt (gi0_lt t) p⟩ ⟨t.val / 4 % 11 * 1024 + q.val, col0_lt (gj0_lt t) q⟩) := by
  refine (congrFun (out0_last (F := Ideal) V c t h1) (ix2 p q)).trans ?_
  refine (pay6_apply (outsAt0 V c t.val t.isLt).2.1 (outsAt0 V c t.val t.isLt).2.2 (ix2 p q)).trans ?_
  rw [gate_inv V c t.val t.isLt p q, up_inv V c t.val t.isLt p q, h1,
    run0_three (xarr0 V c) (garr0 V c) (row0_lt (gi0_lt t) p) (col0_lt (gj0_lt t) q),
    run0_three (xarr0 V c) (uarr0 V c) (row0_lt (gi0_lt t) p) (col0_lt (gj0_lt t) q)]
  rfl

theorem flushed0_eq (V : Contents Ideal) (c : Dev nD) (t : Fin cfg0.N) (hf : (cfg0.win 3).flush t = true) :
    (dat0 (F := Ideal) V c).flushed 3 t
      = ((cfg0.win 3).blk t).view.read (Elt Ideal) (Cert.Spec.hidden (V c main_v100) (V c main_v40) (V c main_v68)) := by
  have h1 : t.val % 4 = 3 := (flush0_3 t).mp hf
  show (cfg0.win 3).cut (grid0.coords t) ((dat0 V c).after 3 t) = _
  rw [after0_3]
  refine funext fun (y : S1024x1024.Idx) => ?_
  obtain ⟨p, q, rfl⟩ : ∃ p q : Fin 1024, y = ix2 p q := ⟨y 0, y 1, eq_ix2 y⟩
  refine Eq.trans ?_ (oblk0_read (F := Ideal) (Cert.Spec.hidden (V c main_v100) (V c main_v40) (V c main_v68)) t p q).symm
  exact out0_last_apply V c t h1 p q

theorem final0 (V : Contents Ideal) (c : Dev nD) :
    (dat0 (F := Ideal) V c).arrAt 3 cfg0.N = Cert.Spec.hidden (V c main_v100) (V c main_v40) (V c main_v68) :=
  (dat0 (F := Ideal) V c).arrAt_eq_of_cover 3 (Cert.Spec.hidden (V c main_v100) (V c main_v40) (V c main_v68)) (flushed0_eq V c) fun i => by
    have hr : (i 0 : ℕ) < 4096 := (i 0).isLt
    have hn : (i 1 : ℕ) < 11264 := (i 1).isLt
    obtain ⟨t, ht⟩ : ∃ t : Fin cfg0.N, t.val = (i 0 : ℕ) / 1024 * 44 + (i 1 : ℕ) / 1024 * 4 + 3 :=
      ⟨⟨(i 0 : ℕ) / 1024 * 44 + (i 1 : ℕ) / 1024 * 4 + 3, lt_of_lt_of_eq (by omega) cfg0_N.symm⟩, rfl⟩
    have hi := index0_3 t
    refine ⟨t, (flush0_3 t).mpr (by omega), ?_⟩
    show i ∈ ((View.whole main_v101).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + 1024
      rw [hi.1, ht]; omega
    | ⟨1, _⟩ =>
      show win0_3.index t 1 * 1024 ≤ (i 1 : ℕ) ∧ (i 1 : ℕ) < win0_3.index t 1 * 1024 + 1024
      rw [hi.2, ht]; omega

end Cert.KernelIdeal.Hand

end
-- ==== Proof.KI.R1Pieces.lean ====
import proofs.«412500_j21947282883010_2_alg».proof.Proof.KI.R1Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz1 : (![0, 0] : Fin 2 → Nat) = fun _ => 0 := funext fun a => by fin_cases a <;> rfl

section
variable (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S1024x1024 .bf16) (xs0 : Vec F S1024x1024 .f32)

/-- At the first reduction step the accumulator is set to zero and then gains the product. -/
theorem pieces1A (hc0 : cond1_0 i) (hc1 : ¬cond1_1 i) (r) (hr : r = kernelRun1_A c i arg3 harg3 arg4 harg4 arg5 harg5 arg6 harg6 x0 x1 hc0 hc1) :
    rdb VS1_0 r.2.1 = k1_pay2 (k1_pay1 (F := F)) x0 x1 := by
  subst hr
  refine (rdb_canon _ _ ?_).trans ?_
  · sl_kernel_rfl
  · unfold kernelRun1_A; dsimp only; sl_unfold_words; rw [View.canon_cons_unit_zero (S := S1024x1024) hz1]
    simp only [View.readCov_unit_zero (S := S1024x1024) _ hz1, View.readAt_eq_ld, harg3.read_unread, harg4.read_unread, harg6.read_unread, View.ld_unit_zero (S := S1024x1024) hz1]

/-- At a middle reduction step the accumulator gains the product over what it held. -/
theorem pieces1B (hc0 : ¬cond1_0 i) (hc1 : ¬cond1_1 i) (r) (hr : r = kernelRun1_B c i arg3 harg3 arg4 harg4 arg5 harg5 arg6 harg6 x0 x1 xs0 hc0 hc1) :
    rdb VS1_0 r.2.1 = k1_pay2 xs0 x0 x1 := by
  subst hr
  refine (rdb_canon _ _ ?_).trans ?_
  · sl_kernel_rfl
  · unfold kernelRun1_B; dsimp only; sl_unfold_words; rw [View.canon_unit_zero hz1]
    simp only [View.readCov_unit_zero (S := S1024x1024) _ hz1, View.readAt_eq_ld, harg3.read_unread, harg4.read_unread, harg6.read_unread, View.ld_unit_zero (S := S1024x1024) hz1]

/-- At the last reduction step the same, and the output block receives the new accumulator. -/
theorem pieces1C (hc0 : ¬cond1_0 i) (hc1 : cond1_1 i) (r) (hr : r = kernelRun1_C c i arg3 harg3 arg4 harg4 arg5 harg5 arg6 harg6 x0 x1 xs0 hc0 hc1) :
    rdb VO1_2 r.1 = rdb VS1_0 r.2.1 ∧ rdb VS1_0 r.2.1 = k1_pay2 xs0 x0 x1 := by
  subst hr
  have h : rdb VS1_0 (kernelRun1_C c i arg3 harg3 arg4 harg4 arg5 harg5 arg6 harg6 x0 x1 xs0 hc0 hc1).2.1 = k1_pay2 xs0 x0 x1 := by
    refine (rdb_canon _ _ ?_).trans ?_
    · sl_kernel_rfl
    · unfold kernelRun1_C; dsimp only; sl_unfold_words; rw [View.canon_unit_zero hz1]
      simp only [View.readCov_unit_zero (S := S1024x1024) _ hz1, View.readAt_eq_ld, harg3.read_unread, harg4.read_unread, harg6.read_unread, View.ld_unit_zero (S := S1024x1024) hz1]
  refine ⟨?_, h⟩
  rw [h]
  refine (rdb_canon _ _ ?_).trans ?_
  · sl_kernel_rfl
  · unfold kernelRun1_C; dsimp only; sl_unfold_words; rw [View.canon_unit_zero hz1]
    simp only [View.readCov_unit_zero (S := S1024x1024) _ hz1, View.readAt_eq_ld, harg3.read_unread, harg4.read_unread, harg6.read_unread, View.ld_unit_zero (S := S1024x1024) hz1]

end

variable (V : Contents F) (c : Dev nD) (t : Fin cfg1.N)

/-- After the first reduction step the accumulator is the zero block plus the step's product. -/
theorem acc1_first (h0 : t.val % 11 = 0) :
    (outsAt1 V c t.val t.isLt).2 = k1_pay2 (k1_pay1 (F := F)) (iblk1 V c 0 t) (iblk1 V c 1 t) := by
  rw [outsAt1_A V c t h0]; dsimp only
  exact pieces1A c (grid1.coords t) (ms1_0 t) (hs1_0 t) (ms1_1 t) (hs1_1 t) (ms1_2 t) (hs1_2 t) scM1_0 (Memref.isWhole_whole _) (iblk1 V c 0 t) (iblk1 V c 1 t) _ _ (run1A V c t h0) rfl

/-- After a later step it is what the step before left plus the step's product. -/
theorem acc1_step (h0 : ¬t.val % 11 = 0) :
    (outsAt1 V c t.val t.isLt).2 = k1_pay2 (outsAt1 V c (t.val - 1) (pred_lt1 t)).2 (iblk1 V c 0 t) (iblk1 V c 1 t) := by
  by_cases h1 : t.val % 11 = 10
  · rw [outsAt1_C V c t h0 h1]; dsimp only
    exact (pieces1C c (grid1.coords t) (ms1_0 t) (hs1_0 t) (ms1_1 t) (hs1_1 t) (ms1_2 t) (hs1_2 t) scM1_0 (Memref.isWhole_whole _) (iblk1 V c 0 t) (iblk1 V c 1 t) _ _ _ (run1C V c t h0 h1 (outsAt1 V c (t.val - 1) (pred_lt1 t)).2) rfl).2
  · rw [outsAt1_B V c t h0 h1]; dsimp only
    exact pieces1B c (grid1.coords t) (ms1_0 t) (hs1_0 t) (ms1_1 t) (hs1_1 t) (ms1_2 t) (hs1_2 t) scM1_0 (Memref.isWhole_whole _) (iblk1 V c 0 t) (iblk1 V c 1 t) _ _ _ (run1B V c t h0 h1 (outsAt1 V c (t.val - 1) (pred_lt1 t)).2) rfl

/-- At the last step the output block receives what the accumulator is left at. -/
theorem out_last (h1 : t.val % 11 = 10) : (outsAt1 V c t.val t.isLt).1 = (outsAt1 V c t.val t.isLt).2 := by
  have h0 : ¬t.val % 11 = 0 := by omega
  rw [outsAt1_C V c t h0 h1]; dsimp only
  exact (pieces1C c (grid1.coords t) (ms1_0 t) (hs1_0 t) (ms1_1 t) (hs1_1 t) (ms1_2 t) (hs1_2 t) scM1_0 (Memref.isWhole_whole _) (iblk1 V c 0 t) (iblk1 V c 1 t) _ _ _ (run1C V c t h0 h1 (outsAt1 V c (t.val - 1) (pred_lt1 t)).2) rfl).1

end Cert.KernelIdeal.Hand

end
-- ==== Proof.KI.R1Pay.lean ====
import proofs.«412500_j21947282883010_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

theorem lhs_down_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_down_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_down_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_down_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem matmul_down_apply (x w : FVec Ideal S1024x1024 .bf16) (p q : Fin 1024) :
    matmul dot_S1024x1024_S1024x1024_S1024x1024_1_0_0_1_n_n none x w (constant S1024x1024 .f32 0x00000000#32) (ix2 p q)
      = ∑ l : Fin 1024, x (ix2 p l) * w (ix2 l q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_down_0 _ _
    | ⟨1, _⟩ => exact (lhs_down_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_down_0 _ _).trans hk
    | ⟨1, _⟩ => exact rhs_down_1 _ _)
  rw [el, er]

theorem k1_pay2_apply (a : Vec Ideal S1024x1024 .f32) (x w : Vec Ideal S1024x1024 .bf16) (p q : Fin 1024) :
    k1_pay2 (F := Ideal) a x w (ix2 p q) = a (ix2 p q) + ∑ l : Fin 1024, x (ix2 p l) * w (ix2 l q) := by
  unfold k1_pay2
  simp only [shapeCast_self]
  exact congrArg (a (ix2 p q) + ·) (matmul_down_apply x w p q)

theorem k1_pay1_apply (i : S1024x1024.Idx) : k1_pay1 (F := Ideal) i = 0 := by
  unfold k1_pay1
  simp only [shapeCast_self]
  exact Ideal.ofBits_zero_f32

end Cert.KernelIdeal.Hand

end
-- ==== Proof.KI.R1Grid.lean ====
import proofs.«412500_j21947282883010_2_alg».proof.Proof.Gen.KernelIdeal.Points

noncomputable section

namespace Cert.KernelIdeal.Hand

open Idealize.ShloMosaic
open Cert.KernelIdeal Cert.KernelIdeal.Gen

theorem idx1_facts : ∀ t : Fin cfg1.N,
    (win1_0.index t 0 = t.val / 44 ∧ win1_0.index t 1 = t.val % 11)
    ∧ (win1_1.index t 0 = t.val % 11 ∧ win1_1.index t 1 = t.val / 11 % 4)
    ∧ (win1_2.index t 0 = t.val / 44 ∧ win1_2.index t 1 = t.val / 11 % 4) :=
  (by decide +kernel : ∀ t : Fin grid1.N,
    (win1_0.index t 0 = t.val / 44 ∧ win1_0.index t 1 = t.val % 11)
    ∧ (win1_1.index t 0 = t.val % 11 ∧ win1_1.index t 1 = t.val / 11 % 4)
    ∧ (win1_2.index t 0 = t.val / 44 ∧ win1_2.index t 1 = t.val / 11 % 4))

end Cert.KernelIdeal.Hand

end
-- ==== Proof.KI.R1Sum.lean ====
import Mathlib.Algebra.BigOperators.Fin
import Mathlib.Algebra.BigOperators.Intervals
import Mathlib.Data.Fintype.BigOperators
import Mathlib.Logic.Equiv.Fin.Basic

namespace Cert.KernelIdeal.Hand

open scoped BigOperators

abbrev hiddenPos (k : Fin 11) (l : Fin 1024) : Fin 11264 := ⟨k.val * 1024 + l.val, by have := k.isLt; have := l.isLt; omega⟩

def hiddenEquiv : Fin 11 × Fin 1024 ≃ Fin 11264 where
  toFun x := hiddenPos x.1 x.2
  invFun n := (⟨n.val / 1024, by have := n.isLt; omega⟩, ⟨n.val % 1024, Nat.mod_lt _ (by decide)⟩)
  left_inv x := by
    obtain ⟨k, l⟩ := x
    have := k.isLt; have := l.isLt
    refine Prod.ext (Fin.ext ?_) (Fin.ext ?_)
    · show (k.val * 1024 + l.val) / 1024 = k.val; omega
    · show (k.val * 1024 + l.val) % 1024 = l.val; omega
  right_inv n := Fin.ext (by show n.val / 1024 * 1024 + n.val % 1024 = n.val; omega)

def runSum {M : Type*} [AddCommMonoid M] (f : Fin 11264 → M) (k : ℕ) : M :=
  if hk : k < 11 then ∑ l : Fin 1024, f (hiddenPos ⟨k, hk⟩ l) else 0

theorem runSum_of_lt {M : Type*} [AddCommMonoid M] (f : Fin 11264 → M) (k : ℕ) (hk : k < 11) :
    runSum f k = ∑ l : Fin 1024, f (hiddenPos ⟨k, hk⟩ l) := dif_pos hk

theorem sum_eq_sum_runs {M : Type*} [AddCommMonoid M] (f : Fin 11264 → M) :
    ∑ n : Fin 11264, f n = ∑ k ∈ Finset.range 11, runSum f k := by
  rw [Finset.sum_range, ← Equiv.sum_comp hiddenEquiv f, Fintype.sum_prod_type]
  exact Finset.sum_congr rfl fun k _ => (runSum_of_lt f k.val k.isLt).symm

end Cert.KernelIdeal.Hand
-- ==== Proof.KI.R1Steps.lean ====
/-
  The down projection's accumulator, one reduction step at a time, over the extended reals.

  At point `t` of the grid (row block `t / 44`, column block `t / 11 % 4`, reduction step `t % 11`) the body is
  given the activations' block (row block, step) and the weights' block (step, column block). Element (p, l) of
  the activations' block is element (row block * 1024 + p, step * 1024 + l) of the activations' array, and
  element (l, q) of the weights' block is element (step * 1024 + l, column block * 1024 + q) of the weights'
  array: a block's coordinate is its block index times the block's size plus the coordinate inside the block.
  So the product of the two blocks at (p, q) is the part of the down projection's sum, for row
  `row block * 1024 + p` and column `column block * 1024 + q`, that runs over the 1024 hidden positions of this
  step. At the first step the accumulator is left at that part; at a later step at what it held plus that part;
  at the last step the output block receives the accumulator.
-/
import proofs.«412500_j21947282883010_2_alg».proof.Proof.KI.R1Pieces
import proofs.«412500_j21947282883010_2_alg».proof.Proof.KI.R1Pay
import proofs.«412500_j21947282883010_2_alg».proof.Proof.KI.R1Grid
import proofs.«412500_j21947282883010_2_alg».proof.Proof.KI.R1Sum

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-! ## The arrays and the blocks, by their literal types -/

/-- The activations (the gated hidden layer), 4096 x 11264, as the region finds them. -/
abbrev hArr (V : Contents F) (c : Dev nD) : Vec F S4096x11264 .bf16 := V c main_v101
/-- The down weights, 11264 x 4096, as the region finds them. -/
abbrev wArr (V : Contents F) (c : Dev nD) : Vec F S11264x4096 .bf16 := V c main_v99
/-- The activations' block at point `t`. -/
abbrev hBlk (V : Contents F) (c : Dev nD) (t : Fin cfg1.N) : Vec F S1024x1024 .bf16 := iblk1 V c 0 t
/-- The weights' block at point `t`. -/
abbrev wBlk (V : Contents F) (c : Dev nD) (t : Fin cfg1.N) : Vec F S1024x1024 .bf16 := iblk1 V c 1 t

/-- Element (p, l) of the activations' block at `t` is element (row block * 1024 + p, step * 1024 + l) of the array. -/
theorem hBlk_apply (V : Contents F) (c : Dev nD) (t : Fin cfg1.N) (p l : Fin 1024) (r : Fin 4096) (m : Fin 11264)
    (hr : r.val = t.val / 44 * 1024 + p.val) (hm : m.val = t.val % 11 * 1024 + l.val) :
    hBlk V c t (ix2 p l) = hArr V c (ix2 r m) := by
  show ((cfg1.win 0).blk t).view.read (Elt F) (V c (Pipeline.arrRef spec1 0)) (ix2 p l) = _
  rw [View.read_apply]
  show V c main_v101 (((cfg1.win 0).blk t).view.emb (ix2 p l)) = V c main_v101 (ix2 r m)
  refine congrArg _ (funext fun a => Fin.ext ?_)
  obtain ⟨⟨h00, h01⟩, -, -⟩ := idx1_facts t
  match a with
  | ⟨0, _⟩ => show win1_0.index t 0 * 1024 + 1 * p.val = r.val; rw [h00, hr]; omega
  | ⟨1, _⟩ => show win1_0.index t 1 * 1024 + 1 * l.val = m.val; rw [h01, hm]; omega

/-- Element (l, q) of the weights' block at `t` is element (step * 1024 + l, column block * 1024 + q) of the array. -/
theorem wBlk_apply (V : Contents F) (c : Dev nD) (t : Fin cfg1.N) (l q : Fin 1024) (m : Fin 11264) (s : Fin 4096)
    (hm : m.val = t.val % 11 * 1024 + l.val) (hs : s.val = t.val / 11 % 4 * 1024 + q.val) :
    wBlk V c t (ix2 l q) = wArr V c (ix2 m s) := by
  show ((cfg1.win 1).blk t).view.read (Elt F) (V c (Pipeline.arrRef spec1 1)) (ix2 l q) = _
  rw [View.read_apply]
  show V c main_v99 (((cfg1.win 1).blk t).view.emb (ix2 l q)) = V c main_v99 (ix2 m s)
  refine congrArg _ (funext fun a => Fin.ext ?_)
  obtain ⟨-, ⟨h10, h11⟩, -⟩ := idx1_facts t
  match a with
  | ⟨0, _⟩ => show win1_1.index t 0 * 1024 + 1 * l.val = m.val; rw [h10, hm]; omega
  | ⟨1, _⟩ => show win1_1.index t 1 * 1024 + 1 * q.val = s.val; rw [h11, hs]; omega

/-! ## One term of the down projection, and a step's part of its sum -/

/-- Row `r` of the activations against column `s` of the weights, at hidden position `m`. -/
abbrev dotTerm (V : Contents Ideal) (c : Dev nD) (r s : Fin 4096) (m : Fin 11264) : EReal :=
  hArr V c (ix2 r m) * wArr V c (ix2 m s)

/-- The product of the two blocks at `t`, at (p, q), is the run of the down projection's sum that belongs to
    `t`'s reduction step, for the row and column (p, q) stand for. -/
theorem blockDot_eq (V : Contents Ideal) (c : Dev nD) (t : Fin cfg1.N) (p q : Fin 1024) (r s : Fin 4096)
    (hr : r.val = t.val / 44 * 1024 + p.val) (hs : s.val = t.val / 11 % 4 * 1024 + q.val) :
    ∑ l : Fin 1024, hBlk V c t (ix2 p l) * wBlk V c t (ix2 l q) = runSum (dotTerm V c r s) (t.val % 11) := by
  rw [runSum_of_lt _ _ (Nat.mod_lt _ (by decide))]
  refine Finset.sum_congr rfl fun l _ => ?_
  rw [hBlk_apply V c t p l r (hiddenPos ⟨t.val % 11, Nat.mod_lt _ (by decide)⟩ l) hr rfl,
    wBlk_apply V c t l q (hiddenPos ⟨t.val % 11, Nat.mod_lt _ (by decide)⟩ l) s rfl hs]

/-! ## The three steps -/

/-- After the first reduction step the accumulator holds the product of the two blocks. -/
theorem acc_first (V : Contents Ideal) (c : Dev nD) (t : Fin cfg1.N) (h0 : t.val % 11 = 0) (p q : Fin 1024) :
    (outsAt1 (F := Ideal) V c t.val t.isLt).2 (ix2 p q) = ∑ l : Fin 1024, hBlk V c t (ix2 p l) * wBlk V c t (ix2 l q) := by
  refine (congrFun (acc1_first V c t h0) (ix2 p q)).trans ?_
  show k1_pay2 k1_pay1 (hBlk V c t) (wBlk V c t) (ix2 p q) = _
  rw [k1_pay2_apply, k1_pay1_apply, zero_add]

/-- After a later reduction step it holds what the step before left plus the product of the two blocks. -/
theorem acc_next (V : Contents Ideal) (c : Dev nD) (t : Fin cfg1.N) (h0 : ¬t.val % 11 = 0) (p q : Fin 1024) :
    (outsAt1 (F := Ideal) V c t.val t.isLt).2 (ix2 p q)
      = (outsAt1 (F := Ideal) V c (t.val - 1) (pred_lt1 t)).2 (ix2 p q)
        + ∑ l : Fin 1024, hBlk V c t (ix2 p l) * wBlk V c t (ix2 l q) := by
  refine (congrFun (acc1_step V c t h0) (ix2 p q)).trans ?_
  show k1_pay2 _ (hBlk V c t) (wBlk V c t) (ix2 p q) = _
  rw [k1_pay2_apply]

end Cert.KernelIdeal.Hand

end
-- ==== Proof.KI.R1Value.lean ====
import proofs.«412500_j21947282883010_2_alg».proof.Proof.KI.R1Steps
import proofs.«412500_j21947282883010_2_alg».proof.Proof.KI.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem acc_eq (V : Contents Ideal) (c : Dev nD) : ∀ (n : ℕ) (hn : n < cfg1.N) (p q : Fin 1024) (r s : Fin 4096),
    r.val = n / 44 * 1024 + p.val → s.val = n / 11 % 4 * 1024 + q.val →
    (outsAt1 (F := Ideal) V c n hn).2 (ix2 p q) = ∑ k ∈ Finset.range (n % 11 + 1), runSum (dotTerm V c r s) k
  | 0, hn, p, q, r, s, hr, hs => by
    refine (acc_first V c ⟨0, hn⟩ (Nat.zero_mod _) p q).trans ?_
    rw [blockDot_eq V c ⟨0, hn⟩ p q r s hr hs]
    exact (Finset.sum_range_one _).symm
  | n + 1, hn, p, q, r, s, hr, hs => by
    by_cases h0 : (n + 1) % 11 = 0
    · refine (acc_first V c ⟨n + 1, hn⟩ h0 p q).trans ?_
      rw [blockDot_eq V c ⟨n + 1, hn⟩ p q r s hr hs]
      show runSum (dotTerm V c r s) ((n + 1) % 11) = _
      rw [h0]
      exact (Finset.sum_range_one _).symm
    · refine (acc_next V c ⟨n + 1, hn⟩ h0 p q).trans ?_
      rw [blockDot_eq V c ⟨n + 1, hn⟩ p q r s hr hs]
      show (outsAt1 (F := Ideal) V c n (Nat.lt_of_succ_lt hn)).2 (ix2 p q) + runSum (dotTerm V c r s) ((n + 1) % 11) = _
      rw [acc_eq V c n (Nat.lt_of_succ_lt hn) p q r s (by omega) (by omega)]
      have hk : (n + 1) % 11 = n % 11 + 1 := by omega
      rw [hk, Finset.sum_range_succ _ (n % 11 + 1)]

theorem out_block_eq (V : Contents Ideal) (c : Dev nD) (t : Fin cfg1.N) (h1 : t.val % 11 = 10) (y : S1024x1024.Idx)
    (i : S4096x4096.Idx) (hi0 : (i 0).val = t.val / 44 * 1024 + (y 0).val) (hi1 : (i 1).val = t.val / 11 % 4 * 1024 + (y 1).val) :
    (outsAt1 (F := Ideal) V c t.val t.isLt).1 y = Cert.Spec.down (hArr V c) (wArr V c) i := by
  rw [out_last V c t h1]
  obtain ⟨p, q, rfl⟩ : ∃ (p q : Fin 1024), y = ix2 p q := ⟨y 0, y 1, eq_ix2 y⟩
  rw [acc_eq V c t.val t.isLt p q ⟨(i 0).val, idx2_lt0 i⟩ ⟨(i 1).val, idx2_lt1 i⟩ hi0 hi1, h1]
  show ∑ k ∈ Finset.range 11, runSum (dotTerm V c ⟨(i 0).val, idx2_lt0 i⟩ ⟨(i 1).val, idx2_lt1 i⟩) k
    = ∑ n : Fin 11264, dotTerm V c ⟨(i 0).val, idx2_lt0 i⟩ ⟨(i 1).val, idx2_lt1 i⟩ n
  exact (sum_eq_sum_runs _).symm

theorem flushed1_eq (V : Contents Ideal) (c : Dev nD) (t : Fin cfg1.N) (hf : (cfg1.win 2).flush t = true) :
    (dat1 (F := Ideal) V c).flushed 2 t
      = ((cfg1.win 2).blk t).view.read (Elt Ideal) (Cert.Spec.down (hArr V c) (wArr V c)) := by
  have h1 : t.val % 11 = 10 := (flush1_2 t).mp hf
  obtain ⟨-, -, h20, h21⟩ := idx1_facts t
  show (cfg1.win 2).cut (grid1.coords t) ((dat1 (F := Ideal) V c).after 2 t) = _
  rw [after1_2]
  funext y
  rw [View.read_apply]
  show (outsAt1 (F := Ideal) V c t.val t.isLt).1 ((cfg1.win 2).xinj (grid1.coords t) y)
    = Cert.Spec.down (hArr V c) (wArr V c) (((cfg1.win 2).blk t).view.emb y)
  refine out_block_eq V c t h1 _ _ ?_ ?_
  · show win1_2.index t 0 * 1024 + 1 * (y 0).val = t.val / 44 * 1024 + (y 0).val
    rw [h20]; omega
  · show win1_2.index t 1 * 1024 + 1 * (y 1).val = t.val / 11 % 4 * 1024 + (y 1).val
    rw [h21]; omega

theorem cover1 (i : S4096x4096.Idx) :
    ∃ t : Fin cfg1.N, (cfg1.win 2).flush t = true ∧ i ∈ ((cfg1.win 2).blk t).view.set := by
  have hi0 : (i 0 : Nat) < 4096 := (i 0).isLt
  have hi1 : (i 1 : Nat) < 4096 := (i 1).isLt
  obtain ⟨t, ht⟩ : ∃ t : Fin cfg1.N, t.val = (i 0 : Nat) / 1024 * 44 + (i 1 : Nat) / 1024 * 11 + 10 :=
    ⟨⟨(i 0 : Nat) / 1024 * 44 + (i 1 : Nat) / 1024 * 11 + 10, by show _ < grid1.N; rw [N_1]; omega⟩, rfl⟩
  obtain ⟨-, -, h20, h21⟩ := idx1_facts t
  refine ⟨t, (flush1_2 t).mpr (by omega), ?_⟩
  show i ∈ ((View.whole main_v102).slice (win1_2.rect t)).set
  rw [View.set_slice_whole, Rect.mem_set_unit]
  intro a
  match a with
  | ⟨0, _⟩ =>
    show win1_2.index t 0 * 1024 ≤ (i 0 : Nat) ∧ (i 0 : Nat) < win1_2.index t 0 * 1024 + 1024
    rw [h20]; omega
  | ⟨1, _⟩ =>
    show win1_2.index t 1 * 1024 ≤ (i 1 : Nat) ∧ (i 1 : Nat) < win1_2.index t 1 * 1024 + 1024
    rw [h21]; omega

theorem final1 (V : Contents Ideal) (c : Dev nD) :
    (dat1 (F := Ideal) V c).arrAt 2 cfg1.N = Cert.Spec.down (V c main_v101) (V c main_v99) :=
  (dat1 (F := Ideal) V c).arrAt_eq_of_cover 2 (Cert.Spec.down (hArr V c) (wArr V c)) (flushed1_eq V c) cover1

end Cert.KernelIdeal.Hand

end
-- ==== Proof.KI.KHostGUDefs.lean ====
import proofs.«412500_j21947282883010_2_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

def shiftTab : (⟨S8, .i32⟩ : BufTy).Contents (Elt F) :=
  muli (iotaInDim S8 32 0) (broadcastInDim S8 ![] bcast_S_S8 (constantI S_ 32 4#32))

def unpackW (qw : (⟨S4096x1408, .i32⟩ : BufTy).Contents (Elt F)) : (⟨S4096x11264, .i32⟩ : BufTy).Contents (Elt F) :=
  shapeCast _
    (andi
      (Host.shrsi
        (broadcastInDim S4096x1408x8 ![0, 1, 2] bcast_S4096x1408x1_S4096x1408x8_0_1_2
          (broadcastInDim S4096x1408x1 ![0, 1] bcast_S4096x1408_S4096x1408x1_0_1 qw))
        (broadcastInDim S4096x1408x8 ![0, 1, 2] bcast_S1x1x8_S4096x1408x8_0_1_2
          (broadcastInDim S1x1x8 ![2] bcast_S8_S1x1x8_2 (shiftTab (F := F)))))
      (broadcastInDim S4096x1408x8 ![] bcast_S_S4096x1408x8 (constantI S_ 32 15#32)))
    shapeCasts_S4096x1408x8_S4096x11264

def unpackZ (qz : (⟨S32x1408, .i32⟩ : BufTy).Contents (Elt F)) : (⟨S32x11264, .i32⟩ : BufTy).Contents (Elt F) :=
  shapeCast _
    (andi
      (Host.shrsi
        (broadcastInDim S32x1408x8 ![0, 1, 2] bcast_S32x1408x1_S32x1408x8_0_1_2
          (broadcastInDim S32x1408x1 ![0, 1] bcast_S32x1408_S32x1408x1_0_1 qz))
        (broadcastInDim S32x1408x8 ![0, 1, 2] bcast_S1x1x8_S32x1408x8_0_1_2
          (broadcastInDim S1x1x8 ![2] bcast_S8_S1x1x8_2 (shiftTab (F := F)))))
      (broadcastInDim S32x1408x8 ![] bcast_S_S32x1408x8 (constantI S_ 32 15#32)))
    shapeCasts_S32x1408x8_S32x11264

def overRows (t : (⟨S32x11264, .f32⟩ : BufTy).Contents (Elt F)) : (⟨S4096x11264, .f32⟩ : BufTy).Contents (Elt F) :=
  shapeCast _ (broadcastInDim S32x128x11264 ![0, 2] bcast_S32x11264_S32x128x11264_0_2 t)
    shapeCasts_S32x128x11264_S4096x11264

def dequant (qw : (⟨S4096x1408, .i32⟩ : BufTy).Contents (Elt F)) (qz : (⟨S32x1408, .i32⟩ : BufTy).Contents (Elt F))
    (sc : (⟨S32x11264, .f32⟩ : BufTy).Contents (Elt F)) : (⟨S4096x11264, .bf16⟩ : BufTy).Contents (Elt F) :=
  truncf .bf16
    (mulf (subf (sitofp .f32 (unpackW qw)) (overRows (sitofp .f32 (unpackZ qz)))) (overRows sc))
    bitsLt_bf16_f32

def halfQW (o : Nat) (h : S4096x2752.Slices ![0, o] S4096x1376) (a : (⟨S4096x2752, .i32⟩ : BufTy).Contents (Elt F)) :
    (⟨S4096x1408, .i32⟩ : BufTy).Contents (Elt F) :=
  pad S4096x1408 ![0, 0] ![0, 32] ![0, 0] (extractStridedSlice S4096x1376 ![0, o] a h) (constantI S_ 32 0#32)
    pads_S4096x1376_S4096x1408_000_0320 h_S_

def halfQZ (o : Nat) (h : S32x2752.Slices ![0, o] S32x1376) (a : (⟨S32x2752, .i32⟩ : BufTy).Contents (Elt F)) :
    (⟨S32x1408, .i32⟩ : BufTy).Contents (Elt F) :=
  pad S32x1408 ![0, 0] ![0, 32] ![0, 0] (extractStridedSlice S32x1376 ![0, o] a h) (constantI S_ 32 0#32)
    pads_S32x1376_S32x1408_000_0320 h_S_

def halfSC (o : Nat) (h : S32x22016.Slices ![0, o] S32x11008) (a : (⟨S32x22016, .f32⟩ : BufTy).Contents (Elt F)) :
    (⟨S32x11264, .f32⟩ : BufTy).Contents (Elt F) :=
  pad S32x11264 ![0, 0] ![0, 256] ![0, 0] (extractStridedSlice S32x11008 ![0, o] a h)
    (sitofp .f32 (constantI S_ 32 0#32 : (⟨S_, .i32⟩ : BufTy).Contents (Elt F)))
    pads_S32x11008_S32x11264_000_02560 h_S_

def xMat (a : (⟨S2x2048x4096, .f32⟩ : BufTy).Contents (Elt F)) : (⟨S4096x4096, .bf16⟩ : BufTy).Contents (Elt F) :=
  truncf .bf16 (shapeCast _ a shapeCasts_S2x2048x4096_S4096x4096) bitsLt_bf16_f32

variable (m : (ℓ : Loc nD τ sig) → Buf (Elt F) ℓ) (c : Dev nD)

theorem v100_eq : Gen.V19 m c (Proc.devRef .tc main_v100) = xMat (m ((c.tc : Thread nD τ).loc main_arg0)) := by
  dsimp only [Gen.V19, Gen.V18, Gen.V17, Gen.V16, Gen.V15, Gen.V14, Gen.V13, Gen.V12, Gen.V11, Gen.V10, Gen.V9, Gen.V8, Gen.V7, Gen.V6, Gen.V5, Gen.V4, Gen.V3, Gen.V2, Gen.V1, Gen.V0]
  simp only [hostOps0_18, hostOps0_17, hostOps0_16, hostOps0_15, hostOps0_14, hostOps0_13, hostOps0_12, hostOps0_11, hostOps0_10, hostOps0_9, hostOps0_8, hostOps0_7, hostOps0_6, hostOps0_5, hostOps0_4, hostOps0_3, hostOps0_2, hostOps0_1, hostOps0]
  after_results_simp
  rfl

theorem v40_eq : Gen.V19 m c (Proc.devRef .tc main_v40)
    = dequant (halfQW 0 slices_S4096x2752_S4096x1376_0_0 (m ((c.tc : Thread nD τ).loc main_arg1)))
        (halfQZ 0 slices_S32x2752_S32x1376_0_0 (m ((c.tc : Thread nD τ).loc main_arg2)))
        (halfSC 0 slices_S32x22016_S32x11008_0_0 (m ((c.tc : Thread nD τ).loc main_arg3))) := by
  dsimp only [Gen.V19, Gen.V18, Gen.V17, Gen.V16, Gen.V15, Gen.V14, Gen.V13, Gen.V12, Gen.V11, Gen.V10, Gen.V9, Gen.V8, Gen.V7, Gen.V6, Gen.V5, Gen.V4, Gen.V3, Gen.V2, Gen.V1, Gen.V0]
  simp only [hostOps0_18, hostOps0_17, hostOps0_16, hostOps0_15, hostOps0_14, hostOps0_13, hostOps0_12, hostOps0_11, hostOps0_10, hostOps0_9, hostOps0_8, hostOps0_7, hostOps0_6, hostOps0_5, hostOps0_4, hostOps0_3, hostOps0_2, hostOps0_1, hostOps0]
  after_results_simp
  rfl

theorem v68_eq : Gen.V19 m c (Proc.devRef .tc main_v68)
    = dequant (halfQW 1376 slices_S4096x2752_S4096x1376_0_1376 (m ((c.tc : Thread nD τ).loc main_arg1)))
        (halfQZ 1376 slices_S32x2752_S32x1376_0_1376 (m ((c.tc : Thread nD τ).loc main_arg2)))
        (halfSC 11008 slices_S32x22016_S32x11008_0_11008 (m ((c.tc : Thread nD τ).loc main_arg3))) := by
  dsimp only [Gen.V19, Gen.V18, Gen.V17, Gen.V16, Gen.V15, Gen.V14, Gen.V13, Gen.V12, Gen.V11, Gen.V10, Gen.V9, Gen.V8, Gen.V7, Gen.V6, Gen.V5, Gen.V4, Gen.V3, Gen.V2, Gen.V1, Gen.V0]
  simp only [hostOps0_18, hostOps0_17, hostOps0_16, hostOps0_15, hostOps0_14, hostOps0_13, hostOps0_12, hostOps0_11, hostOps0_10, hostOps0_9, hostOps0_8, hostOps0_7, hostOps0_6, hostOps0_5, hostOps0_4, hostOps0_3, hostOps0_2, hostOps0_1, hostOps0]
  after_results_simp
  rfl

end Cert.KernelIdeal.Hand

end
-- ==== Proof.KI.KHostGU.lean ====
import proofs.«412500_j21947282883010_2_alg».proof.Proof.KI.KHostGUDefs
import proofs.«412500_j21947282883010_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

def nib (w : BitVec 32) (j : Nat) : BitVec 32 :=
  IntOp.andi (IntOp.shrsi .host w (IntOp.muli (BitVec.ofNat 32 j) 4#32)) 15#32

def deq (w z : BitVec 32) (s : F .f32) (j : Nat) : F .f32 :=
  FloatOps.mulf (FloatOps.subf (FloatOps.sitofp .f32 (nib w j)) (FloatOps.sitofp .f32 (nib z j))) s

theorem shiftTab_apply (i : S8.Idx) : shiftTab (F := F) i = IntOp.muli (BitVec.ofNat 32 (i 0).val) 4#32 := rfl

theorem unpack_apply {R : Nat}
    (b1 : (⟨2, ![R, 1408]⟩ : Shape).BroadcastsInDim ⟨3, ![R, 1408, 1]⟩ (![0, 1] : Fin 2 → Fin 3))
    (b2 : (⟨3, ![R, 1408, 1]⟩ : Shape).BroadcastsInDim ⟨3, ![R, 1408, 8]⟩ (![0, 1, 2] : Fin 3 → Fin 3))
    (b3 : S1x1x8.BroadcastsInDim ⟨3, ![R, 1408, 8]⟩ (![0, 1, 2] : Fin 3 → Fin 3))
    (b4 : S_.BroadcastsInDim ⟨3, ![R, 1408, 8]⟩ (![] : Fin 0 → Fin 3))
    (hc : (⟨3, ![R, 1408, 8]⟩ : Shape).ShapeCasts ⟨2, ![R, 11264]⟩)
    (q : (⟨2, ![R, 1408]⟩ : Shape).Idx → BitVec 32) (k : Fin R) (n : Fin 11264) :
    shapeCast ⟨2, ![R, 11264]⟩
        (andi
          (Host.shrsi
            (broadcastInDim ⟨3, ![R, 1408, 8]⟩ ![0, 1, 2] b2 (broadcastInDim ⟨3, ![R, 1408, 1]⟩ ![0, 1] b1 q))
            (broadcastInDim ⟨3, ![R, 1408, 8]⟩ ![0, 1, 2] b3
              (broadcastInDim S1x1x8 ![2] bcast_S8_S1x1x8_2 (shiftTab (F := F)))))
          (broadcastInDim ⟨3, ![R, 1408, 8]⟩ ![] b4 (constantI S_ 32 15#32)))
        hc (ix2 k n)
      = nib (q (ix2 k ⟨n.val / 8, by omega⟩)) (n.val % 8) := by
  have hk := k.isLt
  have hn := n.isLt

  let j : Fin 1408 := ⟨n.val / 8, by omega⟩
  let r : Fin 8 := ⟨n.val % 8, by omega⟩
  refine (shapeCast_apply _ hc (ix2 k n) (ix3 k j r) ?_).trans ?_
  · rewrite [Shape.rowMajor_val_three, Shape.rowMajor_val_two]
    show (k.val * 1408 + n.val / 8) * 8 + n.val % 8 = k.val * 11264 + n.val
    omega
  · have eA : broadcastInDim ⟨3, ![R, 1408, 8]⟩ ![0, 1, 2] b2 (broadcastInDim ⟨3, ![R, 1408, 1]⟩ ![0, 1] b1 q) (ix3 k j r)
        = q (ix2 k j) := by
      refine (broadcastInDim_apply _ b2 _ (ix3 k j r) (ix3 k j (0 : Fin 1)) (fun a => match a with
        | ⟨0, _⟩ => by show k.val = if R = 1 then 0 else k.val; split <;> omega
        | ⟨1, _⟩ => by show j.val = if (1408 : Nat) = 1 then 0 else j.val; rw [if_neg (by decide)]
        | ⟨2, _⟩ => by show 0 = if (1 : Nat) = 1 then 0 else r.val; rw [if_pos rfl])).trans ?_
      exact broadcastInDim_apply _ b1 q (ix3 k j (0 : Fin 1)) (ix2 k j) (fun a => match a with
        | ⟨0, _⟩ => by show k.val = if R = 1 then 0 else k.val; split <;> omega
        | ⟨1, _⟩ => by show j.val = if (1408 : Nat) = 1 then 0 else j.val; rw [if_neg (by decide)])
    have eB : broadcastInDim ⟨3, ![R, 1408, 8]⟩ ![0, 1, 2] b3
          (broadcastInDim S1x1x8 ![2] bcast_S8_S1x1x8_2 (shiftTab (F := F))) (ix3 k j r)
        = IntOp.muli (BitVec.ofNat 32 r.val) 4#32 := by
      refine (broadcastInDim_apply _ b3 _ (ix3 k j r) (ix3 (0 : Fin 1) (0 : Fin 1) r) (fun a => match a with
        | ⟨0, _⟩ => by show 0 = if (1 : Nat) = 1 then 0 else k.val; rw [if_pos rfl]
        | ⟨1, _⟩ => by show 0 = if (1 : Nat) = 1 then 0 else j.val; rw [if_pos rfl]
        | ⟨2, _⟩ => by show r.val = if (8 : Nat) = 1 then 0 else r.val; rw [if_neg (by decide)])).trans ?_
      refine (broadcastInDim_apply _ bcast_S8_S1x1x8_2 _ (ix3 (0 : Fin 1) (0 : Fin 1) r) (ix1 r) (fun a => match a with
        | ⟨0, _⟩ => by show r.val = if (8 : Nat) = 1 then 0 else r.val; rw [if_neg (by decide)])).trans ?_
      exact shiftTab_apply (ix1 r)
    show IntOp.andi (IntOp.shrsi .host _ _) 15#32 = _
    rw [eA, eB]
    rfl

theorem unpackW_apply (qw : (⟨S4096x1408, .i32⟩ : BufTy).Contents (Elt F)) (k : Fin 4096) (n : Fin 11264) :
    unpackW qw (ix2 k n) = nib (qw (ix2 k ⟨n.val / 8, by omega⟩)) (n.val % 8) :=
  unpack_apply bcast_S4096x1408_S4096x1408x1_0_1 bcast_S4096x1408x1_S4096x1408x8_0_1_2 bcast_S1x1x8_S4096x1408x8_0_1_2
    bcast_S_S4096x1408x8 shapeCasts_S4096x1408x8_S4096x11264 qw k n

theorem unpackZ_apply (qz : (⟨S32x1408, .i32⟩ : BufTy).Contents (Elt F)) (g : Fin 32) (n : Fin 11264) :
    unpackZ qz (ix2 g n) = nib (qz (ix2 g ⟨n.val / 8, by omega⟩)) (n.val % 8) :=
  unpack_apply bcast_S32x1408_S32x1408x1_0_1 bcast_S32x1408x1_S32x1408x8_0_1_2 bcast_S1x1x8_S32x1408x8_0_1_2
    bcast_S_S32x1408x8 shapeCasts_S32x1408x8_S32x11264 qz g n

theorem overRows_apply (t : (⟨S32x11264, .f32⟩ : BufTy).Contents (Elt F)) (k : Fin 4096) (n : Fin 11264) :
    overRows t (ix2 k n) = t (ix2 ⟨k.val / 128, by omega⟩ n) := by
  have hk := k.isLt
  have hn := n.isLt
  unfold overRows
  refine (shapeCast_apply _ shapeCasts_S32x128x11264_S4096x11264 (ix2 k n)
    (ix3 (⟨k.val / 128, by omega⟩ : Fin 32) (⟨k.val % 128, by omega⟩ : Fin 128) n) ?_).trans ?_
  · rewrite [Shape.rowMajor_val_three, Shape.rowMajor_val_two]
    show (k.val / 128 * 128 + k.val % 128) * 11264 + n.val = k.val * 11264 + n.val
    omega
  · exact broadcastInDim_apply _ bcast_S32x11264_S32x128x11264_0_2 t _ (ix2 (⟨k.val / 128, by omega⟩ : Fin 32) n) (fun a => match a with
      | ⟨0, _⟩ => by show k.val / 128 = if (32 : Nat) = 1 then 0 else k.val / 128; rw [if_neg (by decide)]
      | ⟨1, _⟩ => by show n.val = if (11264 : Nat) = 1 then 0 else n.val; rw [if_neg (by decide)])

theorem dequant_apply (qw : (⟨S4096x1408, .i32⟩ : BufTy).Contents (Elt F)) (qz : (⟨S32x1408, .i32⟩ : BufTy).Contents (Elt F))
    (sc : (⟨S32x11264, .f32⟩ : BufTy).Contents (Elt F)) (k : Fin 4096) (n : Fin 11264) :
    dequant qw qz sc (ix2 k n)
      = FloatOps.truncf .bf16 bitsLt_bf16_f32
          (deq (qw (ix2 k ⟨n.val / 8, by omega⟩)) (qz (ix2 ⟨k.val / 128, by omega⟩ ⟨n.val / 8, by omega⟩))
            (sc (ix2 ⟨k.val / 128, by omega⟩ n)) (n.val % 8)) := by
  show FloatOps.truncf .bf16 bitsLt_bf16_f32
      (FloatOps.mulf (FloatOps.subf (FloatOps.sitofp .f32 (unpackW qw (ix2 k n)))
        (overRows (sitofp .f32 (unpackZ qz)) (ix2 k n))) (overRows sc (ix2 k n))) = _
  rw [unpackW_apply, overRows_apply, overRows_apply]
  show FloatOps.truncf .bf16 bitsLt_bf16_f32
      (FloatOps.mulf (FloatOps.subf (FloatOps.sitofp .f32 _)
        (FloatOps.sitofp .f32 (unpackZ qz (ix2 ⟨k.val / 128, by omega⟩ n)))) _) = _
  rw [unpackZ_apply]
  rfl

theorem halfQW_apply (o : Nat) (h : S4096x2752.Slices ![0, o] S4096x1376) (a : (⟨S4096x2752, .i32⟩ : BufTy).Contents (Elt F))
    (k : Fin 4096) (j : Fin 1408) (hj : j.val < 1376) (j' : Fin 2752) (hj' : j'.val = o + j.val) :
    halfQW o h a (ix2 k j) = a (ix2 k j') := by
  unfold halfQW
  refine (pad_apply_of_inside _ _ _ _ _ pads_S4096x1376_S4096x1408_000_0320 h_S_ (ix2 k j) (ix2 k (⟨j.val, hj⟩ : Fin 1376))
    (fun b => match b with
      | ⟨0, _⟩ => by show k.val = 0 + k.val * (0 + 1); omega
      | ⟨1, _⟩ => by show j.val = 0 + j.val * (0 + 1); omega)).trans ?_
  exact slice2_axis1_apply o a h k ⟨j.val, hj⟩ j' hj'

theorem halfQZ_apply (o : Nat) (h : S32x2752.Slices ![0, o] S32x1376) (a : (⟨S32x2752, .i32⟩ : BufTy).Contents (Elt F))
    (g : Fin 32) (j : Fin 1408) (hj : j.val < 1376) (j' : Fin 2752) (hj' : j'.val = o + j.val) :
    halfQZ o h a (ix2 g j) = a (ix2 g j') := by
  unfold halfQZ
  refine (pad_apply_of_inside _ _ _ _ _ pads_S32x1376_S32x1408_000_0320 h_S_ (ix2 g j) (ix2 g (⟨j.val, hj⟩ : Fin 1376))
    (fun b => match b with
      | ⟨0, _⟩ => by show g.val = 0 + g.val * (0 + 1); omega
      | ⟨1, _⟩ => by show j.val = 0 + j.val * (0 + 1); omega)).trans ?_
  exact slice2_axis1_apply o a h g ⟨j.val, hj⟩ j' hj'

theorem halfSC_apply (o : Nat) (h : S32x22016.Slices ![0, o] S32x11008) (a : (⟨S32x22016, .f32⟩ : BufTy).Contents (Elt F))
    (g : Fin 32) (n : Fin 11264) (hn : n.val < 11008) (n' : Fin 22016) (hn' : n'.val = o + n.val) :
    halfSC o h a (ix2 g n) = a (ix2 g n') := by
  unfold halfSC
  refine (pad_apply_of_inside _ _ _ _ _ pads_S32x11008_S32x11264_000_02560 h_S_ (ix2 g n) (ix2 g (⟨n.val, hn⟩ : Fin 11008))
    (fun b => match b with
      | ⟨0, _⟩ => by show g.val = 0 + g.val * (0 + 1); omega
      | ⟨1, _⟩ => by show n.val = 0 + n.val * (0 + 1); omega)).trans ?_
  exact slice2_axis1_apply o a h g ⟨n.val, hn⟩ n' hn'

section Reference
open Cert.ReferenceIdeal.Read

theorem ref_unpackW_apply (x1 : (⟨S4096x2752, .i32⟩ : BufTy).Contents (Elt F)) (k : Fin 4096) (N : Fin 22016) :
    val_main_v10 (F := F) x1 (ix2 k N) = nib (x1 (ix2 k ⟨N.val / 8, by omega⟩)) (N.val % 8) := by
  have hk := k.isLt
  have hN := N.isLt
  rw [val_main_v10_apply, val_main_v9_apply, val_main_v7_apply, val_main_v5_apply, val_main_v3_apply, val_main_v6_apply,
    val_main_v4_apply, val_main_v2_apply, val_main_v0_apply, val_main_v1_apply, val_main_c_apply, val_main_v8_apply,
    val_main_c_0_apply]
  have i1 : idx_main_v3 (idx_main_v5 (idx_main_v10 (ix2 k N))) = ix2 k ⟨N.val / 8, by omega⟩ := funext fun a => match a with
    | ⟨0, _⟩ => Fin.ext (by show (k.val * 22016 + N.val) / 22016 = k.val; omega)
    | ⟨1, _⟩ => Fin.ext (by show (k.val * 22016 + N.val) / 8 % 2752 = N.val / 8; omega)
  have s1 : (idx_main_v4 (idx_main_v6 (idx_main_v10 (ix2 k N))) 0).val = N.val % 8 := by
    show (k.val * 22016 + N.val) % 8 = N.val % 8; omega
  rw [i1, s1]
  rfl

theorem ref_unpackZ_apply (x2 : (⟨S32x2752, .i32⟩ : BufTy).Contents (Elt F)) (g : Fin 32) (N : Fin 22016) :
    val_main_v19 (F := F) x2 (ix2 g N) = nib (x2 (ix2 g ⟨N.val / 8, by omega⟩)) (N.val % 8) := by
  have hg := g.isLt
  have hN := N.isLt
  rw [val_main_v19_apply, val_main_v18_apply, val_main_v16_apply, val_main_v14_apply, val_main_v12_apply, val_main_v15_apply,
    val_main_v13_apply, val_main_v2_apply, val_main_v0_apply, val_main_v1_apply, val_main_c_apply, val_main_v17_apply,
    val_main_c_1_apply]
  have i1 : idx_main_v12 (idx_main_v14 (idx_main_v19 (ix2 g N))) = ix2 g ⟨N.val / 8, by omega⟩ := funext fun a => match a with
    | ⟨0, _⟩ => Fin.ext (by show (g.val * 22016 + N.val) / 22016 = g.val; omega)
    | ⟨1, _⟩ => Fin.ext (by show (g.val * 22016 + N.val) / 8 % 2752 = N.val / 8; omega)
  have s1 : (idx_main_v13 (idx_main_v15 (idx_main_v19 (ix2 g N))) 0).val = N.val % 8 := by
    show (g.val * 22016 + N.val) % 8 = N.val % 8; omega
  rw [i1, s1]
  rfl

theorem ref_w_core (x1 : (⟨S4096x2752, .i32⟩ : BufTy).Contents (Elt F)) (x2 : (⟨S32x2752, .i32⟩ : BufTy).Contents (Elt F))
    (x3 : (⟨S32x22016, .f32⟩ : BufTy).Contents (Elt F)) (k : Fin 4096) (N : Fin 22016) :
    val_main_v26 (F := F) x1 x2 x3 (ix2 k N)
      = deq (x1 (ix2 k ⟨N.val / 8, by omega⟩)) (x2 (ix2 ⟨k.val / 128, by omega⟩ ⟨N.val / 8, by omega⟩))
          (x3 (ix2 ⟨k.val / 128, by omega⟩ N)) (N.val % 8) := by
  have hk := k.isLt
  have hN := N.isLt
  rw [val_main_v26_apply, val_main_v25_apply, val_main_v11_apply, val_main_v22_apply, val_main_v21_apply, val_main_v20_apply,
    val_main_v24_apply, val_main_v23_apply]
  have i2 : idx_main_v21 (idx_main_v22 (ix2 k N)) = ix2 (⟨k.val / 128, by omega⟩ : Fin 32) N := funext fun a => match a with
    | ⟨0, _⟩ => Fin.ext (by show (k.val * 22016 + N.val) / 2818048 = k.val / 128; omega)
    | ⟨1, _⟩ => Fin.ext (by show (k.val * 22016 + N.val) % 22016 = N.val; omega)
  have i3 : idx_main_v23 (idx_main_v24 (ix2 k N)) = ix2 (⟨k.val / 128, by omega⟩ : Fin 32) N := funext fun a => match a with
    | ⟨0, _⟩ => Fin.ext (by show (k.val * 22016 + N.val) / 2818048 = k.val / 128; omega)
    | ⟨1, _⟩ => Fin.ext (by show (k.val * 22016 + N.val) % 22016 = N.val; omega)
  rw [i2, i3, ref_unpackW_apply, ref_unpackZ_apply]
  rfl

theorem ref_w_apply (x1 : (⟨S4096x2752, .i32⟩ : BufTy).Contents (Elt F)) (x2 : (⟨S32x2752, .i32⟩ : BufTy).Contents (Elt F))
    (x3 : (⟨S32x22016, .f32⟩ : BufTy).Contents (Elt F)) (k : Fin 4096) (N : Fin 22016)
    (J : Fin 2752) (hJ : J.val = N.val / 8) (G : Fin 32) (hG : G.val = k.val / 128) (N' : Fin 22016) (hN' : N'.val = N.val)
    (r : Nat) (hr : r = N.val % 8) :
    val_main_v26 (F := F) x1 x2 x3 (ix2 k N) = deq (x1 (ix2 k J)) (x2 (ix2 G J)) (x3 (ix2 G N')) r := by
  subst hr
  obtain ⟨j, hj⟩ := J
  obtain ⟨g, hg⟩ := G
  obtain ⟨n', hn'⟩ := N'
  change j = N.val / 8 at hJ
  change g = k.val / 128 at hG
  change n' = N.val at hN'
  subst hJ hG hN'
  exact ref_w_core x1 x2 x3 k N

end Reference

theorem gate_eq_ref (a1 : (⟨S4096x2752, .i32⟩ : BufTy).Contents (Elt Ideal)) (a2 : (⟨S32x2752, .i32⟩ : BufTy).Contents (Elt Ideal))
    (a3 : (⟨S32x22016, .f32⟩ : BufTy).Contents (Elt Ideal)) (k : Fin 4096) (n : Fin 11264) (hn : n.val < 11008) :
    dequant (halfQW 0 slices_S4096x2752_S4096x1376_0_0 a1) (halfQZ 0 slices_S32x2752_S32x1376_0_0 a2)
        (halfSC 0 slices_S32x22016_S32x11008_0_0 a3) (ix2 k n)
      = Cert.ReferenceIdeal.Read.val_main_v26 (F := Ideal) a1 a2 a3 (ix2 k ⟨n.val, by omega⟩) := by
  have hk := k.isLt
  rw [dequant_apply, Ideal.truncf_def,
    halfQW_apply 0 _ a1 k ⟨n.val / 8, by omega⟩ (by show n.val / 8 < 1376; omega) ⟨n.val / 8, by omega⟩ (by show n.val / 8 = 0 + n.val / 8; omega),
    halfQZ_apply 0 _ a2 ⟨k.val / 128, by omega⟩ ⟨n.val / 8, by omega⟩ (by show n.val / 8 < 1376; omega) ⟨n.val / 8, by omega⟩ (by show n.val / 8 = 0 + n.val / 8; omega),
    halfSC_apply 0 _ a3 ⟨k.val / 128, by omega⟩ n hn ⟨n.val, by omega⟩ (by show n.val = 0 + n.val; omega)]
  exact (ref_w_apply a1 a2 a3 k ⟨n.val, by omega⟩ _ rfl _ rfl _ rfl _ rfl).symm

theorem up_eq_ref (a1 : (⟨S4096x2752, .i32⟩ : BufTy).Contents (Elt Ideal)) (a2 : (⟨S32x2752, .i32⟩ : BufTy).Contents (Elt Ideal))
    (a3 : (⟨S32x22016, .f32⟩ : BufTy).Contents (Elt Ideal)) (k : Fin 4096) (n : Fin 11264) (hn : n.val < 11008) :
    dequant (halfQW 1376 slices_S4096x2752_S4096x1376_0_1376 a1) (halfQZ 1376 slices_S32x2752_S32x1376_0_1376 a2)
        (halfSC 11008 slices_S32x22016_S32x11008_0_11008 a3) (ix2 k n)
      = Cert.ReferenceIdeal.Read.val_main_v26 (F := Ideal) a1 a2 a3 (ix2 k ⟨11008 + n.val, by omega⟩) := by
  have hk := k.isLt
  rw [dequant_apply, Ideal.truncf_def,
    halfQW_apply 1376 _ a1 k ⟨n.val / 8, by omega⟩ (by show n.val / 8 < 1376; omega) ⟨1376 + n.val / 8, by omega⟩ rfl,
    halfQZ_apply 1376 _ a2 ⟨k.val / 128, by omega⟩ ⟨n.val / 8, by omega⟩ (by show n.val / 8 < 1376; omega) ⟨1376 + n.val / 8, by omega⟩ rfl,
    halfSC_apply 11008 _ a3 ⟨k.val / 128, by omega⟩ n hn ⟨11008 + n.val, by omega⟩ rfl]
  exact (ref_w_apply a1 a2 a3 k ⟨11008 + n.val, by omega⟩ _ (by show 1376 + n.val / 8 = (11008 + n.val) / 8; omega) _ rfl _ rfl _
    (by show n.val % 8 = (11008 + n.val) % 8; omega)).symm

theorem xMat_apply (a : (⟨S2x2048x4096, .f32⟩ : BufTy).Contents (Elt Ideal)) (r : Fin 4096) (k : Fin 4096) :
    xMat a (ix2 r k) = a (ix3 ⟨r.val / 2048, by omega⟩ ⟨r.val % 2048, by omega⟩ k) := by
  have hr := r.isLt
  show FloatOps.truncf (F := Ideal) .bf16 bitsLt_bf16_f32 (shapeCast S4096x4096 a shapeCasts_S2x2048x4096_S4096x4096 (ix2 r k)) = _
  rw [Ideal.truncf_def]
  exact shapeCast_apply a shapeCasts_S2x2048x4096_S4096x4096 (ix2 r k)
    (ix3 (⟨r.val / 2048, by omega⟩ : Fin 2) (⟨r.val % 2048, by omega⟩ : Fin 2048) k)
    (by rewrite [Shape.rowMajor_val_three, Shape.rowMajor_val_two]
        show (r.val / 2048 * 2048 + r.val % 2048) * 4096 + k.val = r.val * 4096 + k.val
        omega)

variable (m : (ℓ : Loc nD τ sig) → Buf (Elt Ideal) ℓ) (c : Dev nD)

theorem x2_apply (r : Fin 4096) (k : Fin 4096) :
    (Gen.V19 m c (Proc.devRef .tc main_v100)) (ix2 r k)
      = (m ((c.tc : Thread nD τ).loc main_arg0)) (ix3 ⟨r.val / 2048, by omega⟩ ⟨r.val % 2048, by omega⟩ k) := by
  rw [v100_eq]
  exact xMat_apply _ r k

theorem wgate_apply (k : Fin 4096) (n : Fin 11264) (hn : n.val < 11008) :
    (Gen.V19 m c (Proc.devRef .tc main_v40)) (ix2 k n)
      = Cert.ReferenceIdeal.Read.val_main_v26 (F := Ideal) (m ((c.tc : Thread nD τ).loc main_arg1))
          (m ((c.tc : Thread nD τ).loc main_arg2)) (m ((c.tc : Thread nD τ).loc main_arg3)) (ix2 k ⟨n.val, by omega⟩) := by
  rw [v40_eq]
  exact gate_eq_ref _ _ _ k n hn

theorem wup_apply (k : Fin 4096) (n : Fin 11264) (hn : n.val < 11008) :
    (Gen.V19 m c (Proc.devRef .tc main_v68)) (ix2 k n)
      = Cert.ReferenceIdeal.Read.val_main_v26 (F := Ideal) (m ((c.tc : Thread nD τ).loc main_arg1))
          (m ((c.tc : Thread nD τ).loc main_arg2)) (m ((c.tc : Thread nD τ).loc main_arg3)) (ix2 k ⟨11008 + n.val, by omega⟩) := by
  rw [v68_eq]
  exact up_eq_ref _ _ _ k n hn

end Cert.KernelIdeal.Hand

end
-- ==== Proof.KI.KHostDn.lean ====
import proofs.«412500_j21947282883010_2_alg».proof.Proof.Gen.KernelIdeal.Regions
import proofs.«412500_j21947282883010_2_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal.Laws

noncomputable section
namespace Cert.KernelIdeal.Hand.Dn
open Idealize.ShloMosaic Idealize.ShloMosaic.TcCoe Idealize.SL.Sem Idealize.ShloMosaic.StableHlo
open Cert.KernelIdeal Cert.KernelIdeal.Gen
variable {F : FTy → Type} [FloatOps F]

def shiftTab : (⟨S8, .i32⟩ : BufTy).Contents (Elt F) :=
  muli (iotaInDim S8 32 0) (broadcastInDim S8 ![] bcast_S_S8 (constantI S_ 32 4#32))

def padQw (x : (⟨S11008x512, .i32⟩ : BufTy).Contents (Elt F)) : (⟨S11264x512, .i32⟩ : BufTy).Contents (Elt F) :=
  pad S11264x512 ![0, 0] ![256, 0] ![0, 0] x (id (constantI S_ 32 0#32 : (⟨S_, .i32⟩ : BufTy).Contents (Elt F))) pads_S11008x512_S11264x512_02560_000 h_S_

def padQz (x : (⟨S86x512, .i32⟩ : BufTy).Contents (Elt F)) : (⟨S88x512, .i32⟩ : BufTy).Contents (Elt F) :=
  pad S88x512 ![0, 0] ![2, 0] ![0, 0] x (id (constantI S_ 32 0#32 : (⟨S_, .i32⟩ : BufTy).Contents (Elt F))) pads_S86x512_S88x512_020_000 h_S_

def padSc (x : (⟨S86x4096, .f32⟩ : BufTy).Contents (Elt F)) : (⟨S88x4096, .f32⟩ : BufTy).Contents (Elt F) :=
  pad S88x4096 ![0, 0] ![2, 0] ![0, 0] x (sitofp .f32 (constantI S_ 32 0#32 : (⟨S_, .i32⟩ : BufTy).Contents (Elt F))) pads_S86x4096_S88x4096_020_000 h_S_

def nibQw (q : (⟨S11264x512, .i32⟩ : BufTy).Contents (Elt F)) : (⟨S11264x4096, .i32⟩ : BufTy).Contents (Elt F) :=
  shapeCast _ (andi
      (Host.shrsi
        (broadcastInDim S11264x512x8 ![0, 1, 2] bcast_S11264x512x1_S11264x512x8_0_1_2
          (broadcastInDim S11264x512x1 ![0, 1] bcast_S11264x512_S11264x512x1_0_1 q))
        (broadcastInDim S11264x512x8 ![0, 1, 2] bcast_S1x1x8_S11264x512x8_0_1_2
          (broadcastInDim S1x1x8 ![2] bcast_S8_S1x1x8_2 (shiftTab (F := F)))))
      (broadcastInDim S11264x512x8 ![] bcast_S_S11264x512x8 (constantI S_ 32 15#32)))
    shapeCasts_S11264x512x8_S11264x4096

def nibQz (q : (⟨S88x512, .i32⟩ : BufTy).Contents (Elt F)) : (⟨S88x4096, .i32⟩ : BufTy).Contents (Elt F) :=
  shapeCast _ (andi
      (Host.shrsi
        (broadcastInDim S88x512x8 ![0, 1, 2] bcast_S88x512x1_S88x512x8_0_1_2
          (broadcastInDim S88x512x1 ![0, 1] bcast_S88x512_S88x512x1_0_1 q))
        (broadcastInDim S88x512x8 ![0, 1, 2] bcast_S1x1x8_S88x512x8_0_1_2
          (broadcastInDim S1x1x8 ![2] bcast_S8_S1x1x8_2 (shiftTab (F := F)))))
      (broadcastInDim S88x512x8 ![] bcast_S_S88x512x8 (constantI S_ 32 15#32)))
    shapeCasts_S88x512x8_S88x4096

def grp (t : (⟨S88x4096, .f32⟩ : BufTy).Contents (Elt F)) : (⟨S11264x4096, .f32⟩ : BufTy).Contents (Elt F) :=
  shapeCast _ (broadcastInDim S88x128x4096 ![0, 2] bcast_S88x4096_S88x128x4096_0_2 t) shapeCasts_S88x128x4096_S11264x4096

def wdown32 (x4 : (⟨S11008x512, .i32⟩ : BufTy).Contents (Elt F)) (x5 : (⟨S86x512, .i32⟩ : BufTy).Contents (Elt F))
    (x6 : (⟨S86x4096, .f32⟩ : BufTy).Contents (Elt F)) : (⟨S11264x4096, .f32⟩ : BufTy).Contents (Elt F) :=
  mulf (subf (sitofp .f32 (nibQw (padQw x4))) (grp (sitofp .f32 (nibQz (padQz x5))))) (grp (padSc x6))

def wdown (x4 : (⟨S11008x512, .i32⟩ : BufTy).Contents (Elt F)) (x5 : (⟨S86x512, .i32⟩ : BufTy).Contents (Elt F))
    (x6 : (⟨S86x4096, .f32⟩ : BufTy).Contents (Elt F)) : (⟨S11264x4096, .bf16⟩ : BufTy).Contents (Elt F) :=
  truncf .bf16 (wdown32 x4 x5 x6) bitsLt_bf16_f32

def deq (w z sh : BitVec 32) (sc : F .f32) : F .f32 :=
  FloatOps.mulf (FloatOps.subf (FloatOps.sitofp .f32 (IntOp.andi (IntOp.shrsi .host w sh) 15#32))
    (FloatOps.sitofp .f32 (IntOp.andi (IntOp.shrsi .host z sh) 15#32))) sc

section Readings
open Idealize.ShloMosaic.ValueIdx

theorem nib_apply {R : Nat} (q : (⟨2, ![R, 512]⟩ : Shape).Idx → BitVec 32)
    (tab : (⟨1, ![8]⟩ : Shape).Idx → BitVec 32) (msk : (⟨0, ![]⟩ : Shape).Idx → BitVec 32)
    (h1 : (⟨2, ![R, 512]⟩ : Shape).BroadcastsInDim ⟨3, ![R, 512, 1]⟩ (![0, 1] : Fin 2 → Fin 3))
    (h2 : (⟨3, ![R, 512, 1]⟩ : Shape).BroadcastsInDim ⟨3, ![R, 512, 8]⟩ (![0, 1, 2] : Fin 3 → Fin 3))
    (h3 : (⟨1, ![8]⟩ : Shape).BroadcastsInDim ⟨3, ![1, 1, 8]⟩ (![2] : Fin 1 → Fin 3))
    (h4 : (⟨3, ![1, 1, 8]⟩ : Shape).BroadcastsInDim ⟨3, ![R, 512, 8]⟩ (![0, 1, 2] : Fin 3 → Fin 3))
    (h5 : (⟨0, ![]⟩ : Shape).BroadcastsInDim ⟨3, ![R, 512, 8]⟩ (![] : Fin 0 → Fin 3))
    (h6 : (⟨3, ![R, 512, 8]⟩ : Shape).ShapeCasts ⟨2, ![R, 4096]⟩)
    (n : Fin R) (j : Fin 4096) :
    shapeCast ⟨2, ![R, 4096]⟩
        (andi (Host.shrsi
            (broadcastInDim ⟨3, ![R, 512, 8]⟩ ![0, 1, 2] h2 (broadcastInDim ⟨3, ![R, 512, 1]⟩ ![0, 1] h1 q))
            (broadcastInDim ⟨3, ![R, 512, 8]⟩ ![0, 1, 2] h4 (broadcastInDim ⟨3, ![1, 1, 8]⟩ ![2] h3 tab)))
          (broadcastInDim ⟨3, ![R, 512, 8]⟩ ![] h5 msk)) h6 (ix2 n j)
      = IntOp.andi (IntOp.shrsi .host (q (ix2 n ⟨j.val / 8, by have := j.isLt; omega⟩))
          (tab (ix1 ⟨j.val % 8, by omega⟩))) (msk ix0) := by
  have hj := j.isLt
  rw [shapeCast_apply _ h6 (ix2 n j) (ix3 n (⟨j.val / 8, by omega⟩ : Fin 512) (⟨j.val % 8, by omega⟩ : Fin 8)) (by
    rw [Shape.rowMajor_val_three, Shape.rowMajor_val_two]
    show (n.val * 512 + j.val / 8) * 8 + j.val % 8 = n.val * 4096 + j.val
    omega)]
  show IntOp.andi (IntOp.shrsi .host (broadcastInDim _ _ h2 _ _) (broadcastInDim _ _ h4 _ _)) (broadcastInDim _ _ h5 _ _) = _
  rw [broadcastInDim_apply _ h2 _ _ (ix3 n (⟨j.val / 8, by omega⟩ : Fin 512) (0 : Fin 1)) (fun a => match a with
      | ⟨0, _⟩ => by show n.val = if R = 1 then 0 else n.val; split <;> omega
      | ⟨1, _⟩ => by show j.val / 8 = if (512 : Nat) = 1 then 0 else j.val / 8; rw [if_neg (by decide)]
      | ⟨2, _⟩ => by show 0 = if (1 : Nat) = 1 then 0 else j.val % 8; rw [if_pos rfl]),
    broadcastInDim_apply _ h1 _ _ (ix2 n (⟨j.val / 8, by omega⟩ : Fin 512)) (fun a => match a with
      | ⟨0, _⟩ => by show n.val = if R = 1 then 0 else n.val; split <;> omega
      | ⟨1, _⟩ => by show j.val / 8 = if (512 : Nat) = 1 then 0 else j.val / 8; rw [if_neg (by decide)]),
    broadcastInDim_apply _ h4 _ _ (ix3 (0 : Fin 1) (0 : Fin 1) (⟨j.val % 8, by omega⟩ : Fin 8)) (fun a => match a with
      | ⟨0, _⟩ => by show 0 = if (1 : Nat) = 1 then 0 else n.val; rw [if_pos rfl]
      | ⟨1, _⟩ => by show 0 = if (1 : Nat) = 1 then 0 else j.val / 8; rw [if_pos rfl]
      | ⟨2, _⟩ => by show j.val % 8 = if (8 : Nat) = 1 then 0 else j.val % 8; rw [if_neg (by decide)]),
    broadcastInDim_apply _ h3 _ _ (ix1 (⟨j.val % 8, by omega⟩ : Fin 8)) (fun a => match a with
      | ⟨0, _⟩ => by show j.val % 8 = if (8 : Nat) = 1 then 0 else j.val % 8; rw [if_neg (by decide)]),
    broadcastInDim_apply _ h5 _ _ ix0 (fun a => a.elim0)]

theorem grp_apply {α : Type} {G N : Nat} (hN : N = G * 128) (t : (⟨2, ![G, 4096]⟩ : Shape).Idx → α)
    (h1 : (⟨2, ![G, 4096]⟩ : Shape).BroadcastsInDim ⟨3, ![G, 128, 4096]⟩ (![0, 2] : Fin 2 → Fin 3))
    (h2 : (⟨3, ![G, 128, 4096]⟩ : Shape).ShapeCasts ⟨2, ![N, 4096]⟩)
    (n : Fin N) (j : Fin 4096) :
    shapeCast ⟨2, ![N, 4096]⟩ (broadcastInDim ⟨3, ![G, 128, 4096]⟩ ![0, 2] h1 t) h2 (ix2 n j)
      = t (ix2 ⟨n.val / 128, by have := n.isLt; omega⟩ j) := by
  have hn := n.isLt
  have hj := j.isLt
  rw [shapeCast_apply _ h2 (ix2 n j) (ix3 (⟨n.val / 128, by omega⟩ : Fin G) (⟨n.val % 128, by omega⟩ : Fin 128) j) (by
    rw [Shape.rowMajor_val_three, Shape.rowMajor_val_two]
    show (n.val / 128 * 128 + n.val % 128) * 4096 + j.val = n.val * 4096 + j.val
    omega)]
  exact broadcastInDim_apply _ h1 _ _ _ (fun a => match a with
    | ⟨0, _⟩ => by show n.val / 128 = if G = 1 then 0 else n.val / 128; split <;> omega
    | ⟨1, _⟩ => by show j.val = if (4096 : Nat) = 1 then 0 else j.val; rw [if_neg (by decide)])

end Readings

section KernelReads
open Idealize.ShloMosaic.ValueIdx

theorem shiftTab_apply (t : Fin 8) : shiftTab (F := F) (ix1 t) = IntOp.muli (BitVec.ofNat 32 t.val) 4#32 := rfl

theorem nibQw_apply (q : (⟨S11264x512, .i32⟩ : BufTy).Contents (Elt F)) (n : Fin 11264) (j : Fin 4096) :
    nibQw (F := F) q (ix2 n j)
      = IntOp.andi (IntOp.shrsi .host (q (ix2 n ⟨j.val / 8, by have := j.isLt; omega⟩))
          (IntOp.muli (BitVec.ofNat 32 (j.val % 8)) 4#32)) 15#32 :=
  nib_apply (R := 11264) q (shiftTab (F := F)) (constantI S_ 32 15#32) _ _ _ _ _ _ n j

theorem nibQz_apply (q : (⟨S88x512, .i32⟩ : BufTy).Contents (Elt F)) (g : Fin 88) (j : Fin 4096) :
    nibQz (F := F) q (ix2 g j)
      = IntOp.andi (IntOp.shrsi .host (q (ix2 g ⟨j.val / 8, by have := j.isLt; omega⟩))
          (IntOp.muli (BitVec.ofNat 32 (j.val % 8)) 4#32)) 15#32 :=
  nib_apply (R := 88) q (shiftTab (F := F)) (constantI S_ 32 15#32) _ _ _ _ _ _ g j

theorem grp_apply' (t : (⟨S88x4096, .f32⟩ : BufTy).Contents (Elt F)) (n : Fin 11264) (j : Fin 4096) :
    grp (F := F) t (ix2 n j) = t (ix2 ⟨n.val / 128, by have := n.isLt; omega⟩ j) :=
  grp_apply (G := 88) (N := 11264) rfl t _ _ n j

theorem padQw_inside (x : (⟨S11008x512, .i32⟩ : BufTy).Contents (Elt F)) (n : Fin 11264) (k : Fin 512) (hn : n.val < 11008) :
    padQw (F := F) x (ix2 n k) = x (ix2 ⟨n.val, hn⟩ k) := by
  unfold padQw
  exact pad_apply_of_inside _ _ _ x _ pads_S11008x512_S11264x512_02560_000 h_S_ (ix2 n k) (ix2 ⟨n.val, hn⟩ k) (fun a => match a with
    | ⟨0, _⟩ => by show n.val = 0 + n.val * (0 + 1); omega
    | ⟨1, _⟩ => by show k.val = 0 + k.val * (0 + 1); omega)

theorem padQz_inside (x : (⟨S86x512, .i32⟩ : BufTy).Contents (Elt F)) (g : Fin 88) (k : Fin 512) (hg : g.val < 86) :
    padQz (F := F) x (ix2 g k) = x (ix2 ⟨g.val, hg⟩ k) := by
  unfold padQz
  exact pad_apply_of_inside _ _ _ x _ pads_S86x512_S88x512_020_000 h_S_ (ix2 g k) (ix2 ⟨g.val, hg⟩ k) (fun a => match a with
    | ⟨0, _⟩ => by show g.val = 0 + g.val * (0 + 1); omega
    | ⟨1, _⟩ => by show k.val = 0 + k.val * (0 + 1); omega)

theorem padSc_inside (x : (⟨S86x4096, .f32⟩ : BufTy).Contents (Elt F)) (g : Fin 88) (j : Fin 4096) (hg : g.val < 86) :
    padSc (F := F) x (ix2 g j) = x (ix2 ⟨g.val, hg⟩ j) := by
  unfold padSc
  exact pad_apply_of_inside _ _ _ x _ pads_S86x4096_S88x4096_020_000 h_S_ (ix2 g j) (ix2 ⟨g.val, hg⟩ j) (fun a => match a with
    | ⟨0, _⟩ => by show g.val = 0 + g.val * (0 + 1); omega
    | ⟨1, _⟩ => by show j.val = 0 + j.val * (0 + 1); omega)

theorem padSc_outside (x : (⟨S86x4096, .f32⟩ : BufTy).Contents (Elt F)) (g : Fin 88) (j : Fin 4096) (hg : 86 ≤ g.val) :
    padSc (F := F) x (ix2 g j) = FloatOps.sitofp .f32 (0#32 : BitVec 32) := by
  unfold padSc
  rw [pad_apply_of_not_inside _ _ _ x _ pads_S86x4096_S88x4096_020_000 h_S_ (ix2 g j) (0 : Fin 2) (by
    show ¬(0 ≤ g.val ∧ (g.val - 0) % (0 + 1) = 0 ∧ (g.val - 0) / (0 + 1) < 86)
    omega)]
  rfl

theorem wdown32_read (x4 : (⟨S11008x512, .i32⟩ : BufTy).Contents (Elt F)) (x5 : (⟨S86x512, .i32⟩ : BufTy).Contents (Elt F))
    (x6 : (⟨S86x4096, .f32⟩ : BufTy).Contents (Elt F)) (n : Fin 11264) (j : Fin 4096) :
    wdown32 (F := F) x4 x5 x6 (ix2 n j)
      = deq (padQw x4 (ix2 n ⟨j.val / 8, by have := j.isLt; omega⟩))
          (padQz x5 (ix2 ⟨n.val / 128, by have := n.isLt; omega⟩ ⟨j.val / 8, by have := j.isLt; omega⟩))
          (IntOp.muli (BitVec.ofNat 32 (j.val % 8)) 4#32)
          (padSc x6 (ix2 ⟨n.val / 128, by have := n.isLt; omega⟩ j)) := by
  show FloatOps.mulf (FloatOps.subf (FloatOps.sitofp .f32 (nibQw (padQw x4) (ix2 n j)))
      (grp (sitofp .f32 (nibQz (padQz x5))) (ix2 n j))) (grp (padSc x6) (ix2 n j)) = _
  rw [nibQw_apply, grp_apply', grp_apply']
  show FloatOps.mulf (FloatOps.subf _ (FloatOps.sitofp .f32 (nibQz (padQz x5) (ix2 _ j)))) _ = _
  rw [nibQz_apply]
  rfl

end KernelReads

section ReferenceReads
open Idealize.ShloMosaic.ValueIdx

theorem ref_v42_apply (x4 : (⟨S11008x512, .i32⟩ : BufTy).Contents (Elt F)) (n : Fin 11008) (j : Fin 4096) :
    Cert.ReferenceIdeal.Read.val_main_v42 (F := F) x4 (ix2 n j)
      = IntOp.andi (IntOp.shrsi .host (x4 (ix2 n ⟨j.val / 8, by have := j.isLt; omega⟩))
          (IntOp.muli (BitVec.ofNat 32 (j.val % 8)) 4#32)) 15#32 :=
  nib_apply (R := 11008) x4 (Cert.ReferenceIdeal.Read.val_main_v34 (F := F)) (Cert.ReferenceIdeal.Read.val_main_c_3 (F := F)) _ _ _ _ _ _ n j

theorem ref_v51_apply (x5 : (⟨S86x512, .i32⟩ : BufTy).Contents (Elt F)) (g : Fin 86) (j : Fin 4096) :
    Cert.ReferenceIdeal.Read.val_main_v51 (F := F) x5 (ix2 g j)
      = IntOp.andi (IntOp.shrsi .host (x5 (ix2 g ⟨j.val / 8, by have := j.isLt; omega⟩))
          (IntOp.muli (BitVec.ofNat 32 (j.val % 8)) 4#32)) 15#32 :=
  nib_apply (R := 86) x5 (Cert.ReferenceIdeal.Read.val_main_v34 (F := F)) (Cert.ReferenceIdeal.Read.val_main_c_4 (F := F)) _ _ _ _ _ _ g j

theorem ref_v54_apply (x5 : (⟨S86x512, .i32⟩ : BufTy).Contents (Elt F)) (n : Fin 11008) (j : Fin 4096) :
    Cert.ReferenceIdeal.Read.val_main_v54 (F := F) x5 (ix2 n j)
      = Cert.ReferenceIdeal.Read.val_main_v52 (F := F) x5 (ix2 ⟨n.val / 128, by have := n.isLt; omega⟩ j) :=
  grp_apply (G := 86) (N := 11008) rfl (Cert.ReferenceIdeal.Read.val_main_v52 (F := F) x5) _ _ n j

theorem ref_v56_apply (x6 : (⟨S86x4096, .f32⟩ : BufTy).Contents (Elt F)) (n : Fin 11008) (j : Fin 4096) :
    Cert.ReferenceIdeal.Read.val_main_v56 (F := F) x6 (ix2 n j) = x6 (ix2 ⟨n.val / 128, by have := n.isLt; omega⟩ j) :=
  grp_apply (G := 86) (N := 11008) rfl x6 _ _ n j

theorem ref_v58_read (x4 : (⟨S11008x512, .i32⟩ : BufTy).Contents (Elt F)) (x5 : (⟨S86x512, .i32⟩ : BufTy).Contents (Elt F))
    (x6 : (⟨S86x4096, .f32⟩ : BufTy).Contents (Elt F)) (n : Fin 11008) (j : Fin 4096) :
    Cert.ReferenceIdeal.Read.val_main_v58 (F := F) x4 x5 x6 (ix2 n j)
      = deq (x4 (ix2 n ⟨j.val / 8, by have := j.isLt; omega⟩))
          (x5 (ix2 ⟨n.val / 128, by have := n.isLt; omega⟩ ⟨j.val / 8, by have := j.isLt; omega⟩))
          (IntOp.muli (BitVec.ofNat 32 (j.val % 8)) 4#32)
          (x6 (ix2 ⟨n.val / 128, by have := n.isLt; omega⟩ j)) := by
  show FloatOps.mulf (FloatOps.subf (FloatOps.sitofp .f32 (Cert.ReferenceIdeal.Read.val_main_v42 (F := F) x4 (ix2 n j)))
      (Cert.ReferenceIdeal.Read.val_main_v54 (F := F) x5 (ix2 n j))) (Cert.ReferenceIdeal.Read.val_main_v56 (F := F) x6 (ix2 n j)) = _
  rw [ref_v42_apply, ref_v54_apply, ref_v56_apply]
  show FloatOps.mulf (FloatOps.subf _ (FloatOps.sitofp .f32 (Cert.ReferenceIdeal.Read.val_main_v51 (F := F) x5 (ix2 _ j)))) _ = _
  rw [ref_v51_apply]
  rfl

end ReferenceReads

section Compare
open Idealize.ShloMosaic.ValueIdx

theorem wdown32_apply (x4 : (⟨S11008x512, .i32⟩ : BufTy).Contents (Elt F)) (x5 : (⟨S86x512, .i32⟩ : BufTy).Contents (Elt F))
    (x6 : (⟨S86x4096, .f32⟩ : BufTy).Contents (Elt F)) (n : Fin 11264) (j : Fin 4096) (hn : n.val < 11008) :
    wdown32 (F := F) x4 x5 x6 (ix2 n j) = Cert.ReferenceIdeal.Read.val_main_v58 (F := F) x4 x5 x6 (ix2 ⟨n.val, hn⟩ j) := by
  rw [wdown32_read, ref_v58_read, padQw_inside _ _ _ hn, padQz_inside _ _ _ (by show n.val / 128 < 86; omega),
    padSc_inside _ _ _ (by show n.val / 128 < 86; omega)]

theorem wdown32_pad (x4 : (⟨S11008x512, .i32⟩ : BufTy).Contents (Elt Ideal)) (x5 : (⟨S86x512, .i32⟩ : BufTy).Contents (Elt Ideal))
    (x6 : (⟨S86x4096, .f32⟩ : BufTy).Contents (Elt Ideal)) (n : Fin 11264) (j : Fin 4096) (hn : 11008 ≤ n.val) :
    wdown32 (F := Ideal) x4 x5 x6 (ix2 n j) = (0 : EReal) := by
  rw [wdown32_read, padSc_outside _ _ _ (by show 86 ≤ n.val / 128; omega)]
  show _ * (((0#32 : BitVec 32).toInt : ℝ) : EReal) = 0
  rw [show (0#32 : BitVec 32).toInt = 0 from rfl]
  simp

end Compare

theorem wdown_run (m : (ℓ : Loc nD τ sig) → Buf (Elt F) ℓ) (c : Dev nD) :
    Gen.V19 m c (Proc.devRef .tc main_v99)
      = wdown (m ((c.tc : Thread nD τ).loc main_arg4)) (m ((c.tc : Thread nD τ).loc main_arg5)) (m ((c.tc : Thread nD τ).loc main_arg6)) := by
  dsimp only [Gen.V19, Gen.V18, Gen.V17, Gen.V16, Gen.V15, Gen.V14, Gen.V13, Gen.V12, Gen.V11, Gen.V10, Gen.V9, Gen.V8, Gen.V7, Gen.V6, Gen.V5, Gen.V4, Gen.V3, Gen.V2, Gen.V1, Gen.V0]
  simp only [hostOps0_18, hostOps0_17, hostOps0_16, hostOps0_15, hostOps0_14, hostOps0_13, hostOps0_12, hostOps0_11, hostOps0_10, hostOps0_9, hostOps0_8, hostOps0_7, hostOps0_6, hostOps0_5, hostOps0_4, hostOps0_3, hostOps0_2, hostOps0_1, hostOps0]
  after_results_simp
  rfl

section Deliver
open Idealize.ShloMosaic.ValueIdx

theorem wdown_apply (m : (ℓ : Loc nD τ sig) → Buf (Elt Ideal) ℓ) (c : Dev nD) (n : Fin 11264) (j : Fin 4096) (hn : n.val < 11008) :
    (Gen.V19 m c (Proc.devRef .tc main_v99)) (ix2 n j)
      = Cert.ReferenceIdeal.Read.val_main_v58 (F := Ideal) (m ((c.tc : Thread nD τ).loc main_arg4))
          (m ((c.tc : Thread nD τ).loc main_arg5)) (m ((c.tc : Thread nD τ).loc main_arg6)) (ix2 ⟨n.val, hn⟩ j) := by
  rw [wdown_run]
  exact wdown32_apply (F := Ideal) _ _ _ n j hn

theorem wdown_pad (m : (ℓ : Loc nD τ sig) → Buf (Elt Ideal) ℓ) (c : Dev nD) (n : Fin 11264) (j : Fin 4096) (hn : 11008 ≤ n.val) :
    (Gen.V19 m c (Proc.devRef .tc main_v99)) (ix2 n j) = (0 : EReal) := by
  rw [wdown_run]
  exact wdown32_pad _ _ _ n j hn

end Deliver

end Cert.KernelIdeal.Hand.Dn
end
-- ==== Proof.KI.RefValue.lean ====
import proofs.«412500_j21947282883010_2_alg».proof.Proof.Gen.ReferenceIdeal.Read
import proofs.«412500_j21947282883010_2_alg».proof.Proof.KI.Spec

noncomputable section

namespace Cert.ReferenceIdeal.Hand

open Cert.ReferenceIdeal Cert.ReferenceIdeal.Gen Idealize.ShloMosaic Idealize.ShloMosaic.ValueIdx

def refGate (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (b : Fin 2) (s : Fin 2048) (n : Fin 11008) : EReal :=
  ∑ k : Fin 4096, x0 (ix3 b s k) * Read.val_main_v26 (F := Ideal) x1 x2 x3 (ix2 k ⟨n.val, by omega⟩)

def refUp (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (b : Fin 2) (s : Fin 2048) (n : Fin 11008) : EReal :=
  ∑ k : Fin 4096, x0 (ix3 b s k) * Read.val_main_v26 (F := Ideal) x1 x2 x3 (ix2 k ⟨11008 + n.val, by omega⟩)

theorem one_f32 : Ideal.ofBits .f32 0x3F800000#32 = 1 := IdealRules.sign_bit.ideal_onePat .f32

theorem ref_silu_apply (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (i : S2x2048x11008.Idx) :
    Read.val_main_v29 (F := Ideal) x0 x1 x2 x3 i
      = Read.val_main_v28 (F := Ideal) x0 x1 x2 x3 i * Ideal.logistic (Read.val_main_v28 (F := Ideal) x0 x1 x2 x3 i) := by
  rw [Read.val_main_v29_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply]
  simp only [Ideal.mulf_def, Ideal.hostDivf_def, Ideal.addf_def, Ideal.hostUnary_exp_def, Ideal.hostNegf_def, Ideal.negf_def,
    Ideal.ofBits_def, one_f32]
  rfl

theorem ref_gate_apply (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (b : Fin 2) (s : Fin 2048) (n : Fin 11008) :
    Read.val_main_v28 (F := Ideal) x0 x1 x2 x3 (ix3 b s n) = refGate x0 x1 x2 x3 b s n := by
  rw [Read.val_main_v28_apply, Read.val_main_v27_apply]
  unfold refGate
  refine Finset.sum_congr rfl fun k _ => ?_
  have el : Read.lidx_main_v27 (Read.idx_main_v28 (ix3 b s n)) k = ix3 b s k := funext fun a => Fin.ext (by
    match a with
    | ⟨0, _⟩ => rfl
    | ⟨1, _⟩ => rfl
    | ⟨2, _⟩ => rfl)
  have er : Read.ridx_main_v27 (Read.idx_main_v28 (ix3 b s n)) k = ix2 k ⟨n.val, by omega⟩ := funext fun a => Fin.ext (by
    match a with
    | ⟨0, _⟩ => rfl
    | ⟨1, _⟩ => rfl)
  rw [el, er]

theorem ref_up_apply (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (b : Fin 2) (s : Fin 2048) (n : Fin 11008) :
    Read.val_main_v30 (F := Ideal) x0 x1 x2 x3 (ix3 b s n) = refUp x0 x1 x2 x3 b s n := by
  rw [Read.val_main_v30_apply, Read.val_main_v27_apply]
  unfold refUp
  refine Finset.sum_congr rfl fun k _ => ?_
  have el : Read.lidx_main_v27 (Read.idx_main_v30 (ix3 b s n)) k = ix3 b s k := funext fun a => Fin.ext (by
    match a with
    | ⟨0, _⟩ => rfl
    | ⟨1, _⟩ => rfl
    | ⟨2, _⟩ => rfl)
  have er : Read.ridx_main_v27 (Read.idx_main_v30 (ix3 b s n)) k = ix2 k ⟨11008 + n.val, by omega⟩ := funext fun a => Fin.ext (by
    match a with
    | ⟨0, _⟩ => rfl
    | ⟨1, _⟩ => rfl)
  rw [el, er]

theorem ref_hidden_apply (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (b : Fin 2) (s : Fin 2048) (n : Fin 11008) :
    Read.val_main_v31 (F := Ideal) x0 x1 x2 x3 (ix3 b s n)
      = (refGate x0 x1 x2 x3 b s n * Ideal.logistic (refGate x0 x1 x2 x3 b s n)) * refUp x0 x1 x2 x3 b s n := by
  rw [Read.val_main_v31_apply, ref_silu_apply, ref_gate_apply, ref_up_apply]
  rfl

theorem ref_apply (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (x4 : (⟨S11008x512, .i32⟩ : BufTy).Contents (Elt Ideal)) (x5 : (⟨S86x512, .i32⟩ : BufTy).Contents (Elt Ideal)) (x6 : (⟨S86x4096, .f32⟩ : BufTy).Contents (Elt Ideal)) (b : Fin 2) (s : Fin 2048) (j : Fin 4096) :
    Read.val_main_v59 (F := Ideal) x0 x1 x2 x3 x4 x5 x6 (ix3 b s j)
      = ∑ n : Fin 11008, ((refGate x0 x1 x2 x3 b s n * Ideal.logistic (refGate x0 x1 x2 x3 b s n)) * refUp x0 x1 x2 x3 b s n)
          * Read.val_main_v58 (F := Ideal) x4 x5 x6 (ix2 n j) := by
  rw [Read.val_main_v59_apply]
  refine Finset.sum_congr rfl fun n _ => ?_
  have el : Read.lidx_main_v59 (ix3 b s j) n = ix3 b s n := funext fun a => Fin.ext (by
    match a with
    | ⟨0, _⟩ => rfl
    | ⟨1, _⟩ => rfl
    | ⟨2, _⟩ => rfl)
  have er : Read.ridx_main_v59 (ix3 b s j) n = ix2 n j := funext fun a => Fin.ext (by
    match a with
    | ⟨0, _⟩ => rfl
    | ⟨1, _⟩ => rfl)
  rw [el, er, ref_hidden_apply]

end Cert.ReferenceIdeal.Hand

end
-- ==== Proof.KI.RefAlgebra.lean ====
import proofs.«412500_j21947282883010_2_alg».proof.Proof.KI.RefValue

noncomputable section

namespace Cert.ReferenceIdeal.Hand

open Cert.ReferenceIdeal Cert.ReferenceIdeal.Gen Idealize.ShloMosaic Idealize.ShloMosaic.ValueIdx

theorem sum_fin_tail_zero {m n : Nat} (h : m ≤ n) (f : Fin n → EReal) (h0 : ∀ i : Fin n, m ≤ i.val → f i = 0) :
    ∑ i : Fin n, f i = ∑ i : Fin m, f (Fin.castLE h i) := by
  have hmap : ∑ i : Fin m, f (Fin.castLE h i) = ∑ x ∈ Finset.univ.map (Fin.castLEEmb h), f x :=
    (Finset.sum_map Finset.univ (Fin.castLEEmb h) f).symm
  rw [hmap]
  symm
  refine Finset.sum_subset (Finset.subset_univ _) fun i _ hi => h0 i ?_
  by_contra hlt
  exact hi (Finset.mem_map.mpr ⟨⟨i.val, by omega⟩, Finset.mem_univ _, Fin.ext rfl⟩)

theorem x_row (x0 : (⟨S2x2048x4096, .f32⟩ : BufTy).Contents (Elt Ideal)) (X : Cert.Spec.Sx.Idx → EReal)
    (hX : ∀ (r : Fin 4096) (k : Fin 4096), X (ix2 r k) = x0 (ix3 ⟨r.val / 2048, by omega⟩ ⟨r.val % 2048, by omega⟩ k))
    (r : Fin 4096) (b : Fin 2) (s : Fin 2048) (hr : r.val = b.val * 2048 + s.val) (k : Fin 4096) :
    X (ix2 r k) = x0 (ix3 b s k) := by
  rw [hX r k]
  refine congrArg x0 (funext fun a => ?_)
  match a with
  | ⟨0, _⟩ => exact Fin.ext (by show r.val / 2048 = b.val; omega)
  | ⟨1, _⟩ => exact Fin.ext (by show r.val % 2048 = s.val; omega)
  | ⟨2, _⟩ => rfl

theorem proj_gate (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (X : Cert.Spec.Sx.Idx → EReal) (Wg : Cert.Spec.Sw.Idx → EReal)
    (hX : ∀ (r : Fin 4096) (k : Fin 4096), X (ix2 r k) = x0 (ix3 ⟨r.val / 2048, by omega⟩ ⟨r.val % 2048, by omega⟩ k))
    (hWg : ∀ (k : Fin 4096) (n : Fin 11264) (hn : n.val < 11008), Wg (ix2 k n) = Read.val_main_v26 (F := Ideal) x1 x2 x3 (ix2 k ⟨n.val, by omega⟩))
    (r : Fin 4096) (n' : Fin 11264) (b : Fin 2) (s : Fin 2048) (n : Fin 11008) (hr : r.val = b.val * 2048 + s.val) (hn : n'.val = n.val) :
    Cert.Spec.proj X Wg r n' = refGate x0 x1 x2 x3 b s n := by
  unfold Cert.Spec.proj refGate
  refine Finset.sum_congr rfl fun k _ => ?_
  have hlt : n'.val < 11008 := by omega
  have e2 : (⟨n'.val, by omega⟩ : Fin 22016) = ⟨n.val, by omega⟩ := Fin.ext hn
  rw [x_row x0 X hX r b s hr k, hWg k n' hlt, e2]

theorem proj_up (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (X : Cert.Spec.Sx.Idx → EReal) (Wu : Cert.Spec.Sw.Idx → EReal)
    (hX : ∀ (r : Fin 4096) (k : Fin 4096), X (ix2 r k) = x0 (ix3 ⟨r.val / 2048, by omega⟩ ⟨r.val % 2048, by omega⟩ k))
    (hWu : ∀ (k : Fin 4096) (n : Fin 11264) (hn : n.val < 11008), Wu (ix2 k n) = Read.val_main_v26 (F := Ideal) x1 x2 x3 (ix2 k ⟨11008 + n.val, by omega⟩))
    (r : Fin 4096) (n' : Fin 11264) (b : Fin 2) (s : Fin 2048) (n : Fin 11008) (hr : r.val = b.val * 2048 + s.val) (hn : n'.val = n.val) :
    Cert.Spec.proj X Wu r n' = refUp x0 x1 x2 x3 b s n := by
  unfold Cert.Spec.proj refUp
  refine Finset.sum_congr rfl fun k _ => ?_
  have hlt : n'.val < 11008 := by omega
  have e2 : (⟨11008 + n'.val, by omega⟩ : Fin 22016) = ⟨11008 + n.val, by omega⟩ := Fin.ext (by show 11008 + n'.val = 11008 + n.val; omega)
  rw [x_row x0 X hX r b s hr k, hWu k n' hlt, e2]

theorem hidden_entry (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (X : Cert.Spec.Sx.Idx → EReal) (Wg Wu : Cert.Spec.Sw.Idx → EReal)
    (hX : ∀ (r : Fin 4096) (k : Fin 4096), X (ix2 r k) = x0 (ix3 ⟨r.val / 2048, by omega⟩ ⟨r.val % 2048, by omega⟩ k))
    (hWg : ∀ (k : Fin 4096) (n : Fin 11264) (hn : n.val < 11008), Wg (ix2 k n) = Read.val_main_v26 (F := Ideal) x1 x2 x3 (ix2 k ⟨n.val, by omega⟩))
    (hWu : ∀ (k : Fin 4096) (n : Fin 11264) (hn : n.val < 11008), Wu (ix2 k n) = Read.val_main_v26 (F := Ideal) x1 x2 x3 (ix2 k ⟨11008 + n.val, by omega⟩))
    (r : Fin 4096) (n' : Fin 11264) (b : Fin 2) (s : Fin 2048) (n : Fin 11008) (hr : r.val = b.val * 2048 + s.val) (hn : n'.val = n.val) :
    Cert.Spec.hidden X Wg Wu (ix2 r n')
      = (refGate x0 x1 x2 x3 b s n * Ideal.logistic (refGate x0 x1 x2 x3 b s n)) * refUp x0 x1 x2 x3 b s n := by
  show (Cert.Spec.proj X Wg r n' * Ideal.logistic (Cert.Spec.proj X Wg r n')) * Cert.Spec.proj X Wu r n' = _
  rw [proj_gate x0 x1 x2 x3 X Wg hX hWg r n' b s n hr hn, proj_up x0 x1 x2 x3 X Wu hX hWu r n' b s n hr hn]

theorem kernel_eq_ref (x0 : (⟨S2x2048x4096, .f32⟩ : BufTy).Contents (Elt Ideal)) (x1 : (⟨S4096x2752, .i32⟩ : BufTy).Contents (Elt Ideal)) (x2 : (⟨S32x2752, .i32⟩ : BufTy).Contents (Elt Ideal)) (x3 : (⟨S32x22016, .f32⟩ : BufTy).Contents (Elt Ideal)) (x4 : (⟨S11008x512, .i32⟩ : BufTy).Contents (Elt Ideal)) (x5 : (⟨S86x512, .i32⟩ : BufTy).Contents (Elt Ideal)) (x6 : (⟨S86x4096, .f32⟩ : BufTy).Contents (Elt Ideal))
    (X : Cert.Spec.Sx.Idx → EReal) (Wg Wu : Cert.Spec.Sw.Idx → EReal) (Wd : Cert.Spec.Sd.Idx → EReal)
    (hX : ∀ (r : Fin 4096) (k : Fin 4096), X (ix2 r k) = x0 (ix3 ⟨r.val / 2048, by omega⟩ ⟨r.val % 2048, by omega⟩ k))
    (hWg : ∀ (k : Fin 4096) (n : Fin 11264) (hn : n.val < 11008), Wg (ix2 k n) = Read.val_main_v26 (F := Ideal) x1 x2 x3 (ix2 k ⟨n.val, by omega⟩))
    (hWu : ∀ (k : Fin 4096) (n : Fin 11264) (hn : n.val < 11008), Wu (ix2 k n) = Read.val_main_v26 (F := Ideal) x1 x2 x3 (ix2 k ⟨11008 + n.val, by omega⟩))
    (hWd : ∀ (n : Fin 11264) (j : Fin 4096) (hn : n.val < 11008), Wd (ix2 n j) = Read.val_main_v58 (F := Ideal) x4 x5 x6 (ix2 ⟨n.val, hn⟩ j))
    (hWd0 : ∀ (n : Fin 11264) (j : Fin 4096), 11008 ≤ n.val → Wd (ix2 n j) = 0)
    (b : Fin 2) (s : Fin 2048) (j : Fin 4096) :
    Cert.Spec.down (Cert.Spec.hidden X Wg Wu) Wd (ix2 ⟨b.val * 2048 + s.val, by omega⟩ j)
      = Read.val_main_v59 (F := Ideal) x0 x1 x2 x3 x4 x5 x6 (ix3 b s j) := by
  have hrow : b.val * 2048 + s.val < 4096 := by omega
  have hsplit := sum_fin_tail_zero (show 11008 ≤ 11264 by omega)
    (fun n : Fin 11264 => Cert.Spec.hidden X Wg Wu (ix2 (⟨b.val * 2048 + s.val, hrow⟩ : Fin 4096) n) * Wd (ix2 n j))
    (fun n hn => by show _ * Wd (ix2 n j) = 0; rw [hWd0 n j hn, mul_zero])
  rw [ref_apply]
  refine hsplit.trans (Finset.sum_congr rfl fun n _ => ?_)
  show Cert.Spec.hidden X Wg Wu (ix2 (⟨b.val * 2048 + s.val, hrow⟩ : Fin 4096) (Fin.castLE (show 11008 ≤ 11264 by omega) n))
      * Wd (ix2 (Fin.castLE (show 11008 ≤ 11264 by omega) n) j) = _
  rw [hidden_entry x0 x1 x2 x3 X Wg Wu hX hWg hWu _ _ b s n rfl rfl, hWd _ j n.isLt]
  rfl

end Cert.ReferenceIdeal.Hand

end
-- ==== Proof.KI.Result.lean ====
import proofs.«412500_j21947282883010_2_alg».proof.Proof.KI.FrameAny
import proofs.«412500_j21947282883010_2_alg».proof.Proof.KI.R0Value
import proofs.«412500_j21947282883010_2_alg».proof.Proof.KI.R1Value
import proofs.«412500_j21947282883010_2_alg».proof.Proof.KI.KHostGU
import proofs.«412500_j21947282883010_2_alg».proof.Proof.KI.KHostDn
import proofs.«412500_j21947282883010_2_alg».proof.Proof.KI.RefAlgebra

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

theorem res1_eq (m : (ℓ : Loc nD τ sig) → Buf (Elt Ideal) ℓ) (c : Dev nD) :
    res1 m c
      = Cert.Spec.down (Cert.Spec.hidden (entry0 m c main_v100) (entry0 m c main_v40) (entry0 m c main_v68)) (entry0 m c main_v99) := by
  have h1 := final1 (entry1 m) c
  have h0 := final0 (entry0 m) c
  rw [entry1_v101 m c, entry1_of_ne m c main_v99 (by decide)] at h1
  exact h1.trans (congrArg (fun h => Cert.Spec.down h (entry0 m c main_v99)) h0)

theorem result_apply (m : (ℓ : Loc nD τ sig) → Buf (Elt Ideal) ℓ) (c : Dev nD) (b : Fin 2) (s : Fin 2048) (j : Fin 4096) :
    (Gen.V22 m (outsOf m) c (Proc.devRef .tc main_v103)) (ix3 b s j)
      = Cert.ReferenceIdeal.Read.val_main_v59 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (ix3 b s j) := by
  rw [result_eq m c]
  have hidx : (S4096x4096.rowMajor (ix2 (⟨b.val * 2048 + s.val, by have := b.isLt; have := s.isLt; omega⟩ : Fin 4096) j)).val
      = (S2x2048x4096.rowMajor (ix3 b s j)).val := by
    rw [Shape.rowMajor_val_three, Shape.rowMajor_val_two]
    show (b.val * 2048 + s.val) * 4096 + j.val = (b.val * 2048 + s.val) * 4096 + j.val
    rfl
  rw [shapeCast_apply _ shapeCasts_S4096x4096_S2x2048x4096 (ix3 b s j)
    (ix2 (⟨b.val * 2048 + s.val, by have := b.isLt; have := s.isLt; omega⟩ : Fin 4096) j) hidx]
  rw [res1_eq m c]
  exact Cert.ReferenceIdeal.Hand.kernel_eq_ref _ _ _ _ _ _ _ _ _ _ _
    (fun r k => x2_apply m c r k) (fun k n hn => wgate_apply m c k n hn) (fun k n hn => wup_apply m c k n hn)
    (fun n j hn => Dn.wdown_apply m c n j hn) (fun n j hn => Dn.wdown_pad m c n j hn) b s j

end Cert.KernelIdeal.Hand

end
-- ==== Proof.lean ====
/-
  Both programs return, at (b, s, j), the sum over the hidden index n < 11008 of silu(x·Wg)[b,s,n] * (x·Wu)[b,s,n] * Wd[n,j]:
  the kernel's tiled sums are the whole sums regrouped, and the padded tail of the hidden axis meets zero rows of Wd.
-/
import proofs.«412500_j21947282883010_2_alg».proof.Defs
import proofs.«412500_j21947282883010_2_alg».proof.Proof.Gen.Kernel
import proofs.«412500_j21947282883010_2_alg».proof.Proof.Gen.KernelIdeal
import proofs.«412500_j21947282883010_2_alg».proof.Proof.Gen.ReferenceIdeal
import proofs.«412500_j21947282883010_2_alg».proof.Proof.Gen.Pre_finite_inputs
import proofs.«412500_j21947282883010_2_alg».proof.Proof.Gen.ReferenceIdeal.Run
import proofs.«412500_j21947282883010_2_alg».proof.Proof.Gen.ReferenceIdeal.Read
import proofs.«412500_j21947282883010_2_alg».proof.Proof.K.FrameAny
import proofs.«412500_j21947282883010_2_alg».proof.Proof.KI.Result
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame_any m ρ

theorem frame_ki : Cert.frame_KernelIdeal := fun m ρ _ => Cert.KernelIdeal.Hand.frame_any m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Gen.V22 m (Cert.KernelIdeal.Hand.outsOf m) c (Proc.devRef .tc Cert.KernelIdeal.main_v103),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq m' c, (hagree c).1, (hagree c).2.1, (hagree c).2.2.1, (hagree c).2.2.2.1,
    (hagree c).2.2.2.2.1, (hagree c).2.2.2.2.2.1, (hagree c).2.2.2.2.2.2]
  funext i
  obtain ⟨b, s, j, rfl⟩ : ∃ (b : Fin 2) (s : Fin 2048) (j : Fin 4096), i = ix3 b s j := ⟨i 0, i 1, i 2, eq_ix3 i⟩
  exact (Cert.KernelIdeal.Hand.result_apply m c b s j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
